-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S4000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S128x64 : Shape := ⟨2, ![128, 64]⟩
abbrev S64 : Shape := ⟨1, ![64]⟩
abbrev S64x256 : Shape := ⟨2, ![64, 256]⟩
abbrev S256 : Shape := ⟨1, ![256]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S32x16 .f32) (main_arg9 : FVec F S16 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S256 .f32) (main_arg6 : FVec F S128x32 .f32) (main_arg7 : FVec F S32 .f32) (main_arg8 : FVec F S32x16 .f32) (main_arg9 : FVec F S16 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x32 .f32 := Host.absf main_arg6
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S1000000x128 .f32) (main_arg1 : IVec S1000000 32) (main_arg2 : FVec F S128x64 .f32) (main_arg3 : FVec F S64 .f32) (main_arg4 : FVec F S64x256 .f32) (main_arg5 : FVec F S256 .f32) (main_arg6 : FVec F S128x32 .f32) (main_arg7 : FVec F S32 .f32) (main_arg8 : FVec F S32x16 .f32) (main_arg9 : FVec F S16 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_arg6 main_arg7 main_arg8 main_arg9 main_v13 main_v16
-- ==== Kernel.lean ====
abbrev S1000000x128 : Shape := ⟨2, ![1000000, 128]⟩
abbrev S1000000 : Shape := ⟨1, ![1000000]⟩
abbrev S128x64 : Shape := ⟨2, ![128, 64]⟩
abbrev S64 : Shape := ⟨1, ![64]⟩
abbrev S64x256 : Shape := ⟨2, ![64, 256]⟩
abbrev S256 : Shape := ⟨1, ![256]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1000000x1 : Shape := ⟨2, ![1000000, 1]⟩
abbrev S2x128x4096 : Shape := ⟨3, ![2, 128, 4096]⟩
abbrev S4000x128 : Shape := ⟨2, ![4000, 128]⟩
abbrev S4000x1 : Shape := ⟨2, ![4000, 1]⟩
abbrev S1x128x4096 : Shape := ⟨3, ![1, 128, 4096]⟩
abbrev S128x4096 : Shape := ⟨2, ![128, 4096]⟩
abbrev S4000x64 : Shape := ⟨2, ![4000, 64]⟩
abbrev S1x64 : Shape := ⟨2, ![1, 64]⟩
abbrev S4000x256 : Shape := ⟨2, ![4000, 256]⟩
abbrev S1x256 : Shape := ⟨2, ![1, 256]⟩
abbrev S4000x1024 : Shape := ⟨2, ![4000, 1024]⟩
abbrev S256x1024 : Shape := ⟨2, ![256, 1024]⟩
abbrev S128x1024 : Shape := ⟨2, ![128, 1024]⟩
abbrev S4096x16 : Shape := ⟨2, ![4096, 16]⟩
abbrev S4096x128 : Shape := ⟨2, ![4096, 128]⟩
abbrev S4096x32 : Shape := ⟨2, ![4096, 32]⟩
abbrev S1x32 : Shape := ⟨2, ![1, 32]⟩
abbrev S1x16 : Shape := ⟨2, ![1, 16]⟩

abbrev nBuf : Space → Nat
  | .hbm => 13
  | .vmem => 17
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x64, .f32⟩
  | .hbm, ⟨3, _⟩ => ⟨S64, .f32⟩
  | .hbm, ⟨4, _⟩ => ⟨S64x256, .f32⟩
  | .hbm, ⟨5, _⟩ => ⟨S256, .f32⟩
  | .hbm, ⟨6, _⟩ => ⟨S128x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S1000000x1, .i32⟩
  | .hbm, ⟨11, _⟩ => ⟨S2x128x4096, .f32⟩
  | .hbm, ⟨12, _⟩ => ⟨S4096x16, .f32⟩
  | .local _ .vmem, ⟨0, _⟩ => ⟨S4000x128, .f32⟩
  | .local _ .vmem, ⟨1, _⟩ => ⟨S4000x128, .f32⟩
  | .local _ .vmem, ⟨2, _⟩ => ⟨S4000x1, .i32⟩
  | .local _ .vmem, ⟨3, _⟩ => ⟨S4000x1, .i32⟩
  | .local _ .vmem, ⟨4, _⟩ => ⟨S128x64, .f32⟩
  | .local _ .vmem, ⟨5, _⟩ => ⟨S64, .f32⟩
  | .local _ .vmem, ⟨6, _⟩ => ⟨S64x256, .f32⟩
  | .local _ .vmem, ⟨7, _⟩ => ⟨S256, .f32⟩
  | .local _ .vmem, ⟨8, _⟩ => ⟨S1x128x4096, .f32⟩
  | .local _ .vmem, ⟨9, _⟩ => ⟨S1x128x4096, .f32⟩
  | .local _ .vmem, ⟨10, _⟩ => ⟨S128x4096, .f32⟩
  | .local _ .vmem, ⟨11, _⟩ => ⟨S2x128x4096, .f32⟩
  | .local _ .vmem, ⟨12, _⟩ => ⟨S128x32, .f32⟩
  | .local _ .vmem, ⟨13, _⟩ => ⟨S32, .f32⟩
  | .local _ .vmem, ⟨14, _⟩ => ⟨S32x16, .f32⟩
  | .local _ .vmem, ⟨15, _⟩ => ⟨S16, .f32⟩
  | .local _ .vmem, ⟨16, _⟩ => ⟨S4096x16, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v94 : BitVec 1 := Scalar.cmpi .eq arg1 c124_i32
  let v95 : BitVec 32 := Scalar.extui v94
  let c0_i32_30 : BitVec 32 := 0#32
  let v96 : BitVec 1 := Scalar.cmpi .ne v95 c0_i32_30
  v96

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x128x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S1000000_S1000000x1 : S1000000.ShapeCasts S1000000x1
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4000x128_S4000x128_0_0 : ∀ a, (![0, 0] : Fin 2 → Nat) a + S4000x128.size a ≤ S4000x128.size a
  h_S4000x128 : 0 < S4000x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  slices_S4000x256_o0_0_S4000x128 : S4000x256.Slices ![0, 0] S4000x128
  slices_S4000x256_o0_128_S4000x128 : S4000x256.Slices ![0, 128] S4000x128
  bitsLt_bf16_f32 : FTy.bits .bf16 < FTy.bits .f32
  concatenates_S4000x128_S4000x128_S4000x256_d1 : Shape.Concatenates [S4000x128, S4000x128] S4000x256 1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x1024_d1_w32 : S4000x1024.Iotas .tc 32 [1]
  broadcasts_S4000x1_S4000x1024 : S4000x1.Broadcasts S4000x1024
  natLt_1_32 : 1 < 32
  inb_S128x4096_S128x1024_0_0 : ∀ a, (![0, 0] : Fin 2 → Nat) a + S128x1024.size a ≤ S128x4096.size a
  h_S128x1024 : 0 < S128x1024.numel
  slices_S256x1024_o0_0_S128x1024 : S256x1024.Slices ![0, 0] S128x1024
  slices_S256x1024_o128_0_S128x1024 : S256x1024.Slices ![128, 0] S128x1024
  shapeCasts_S128x1024_S128x1024 : S128x1024.ShapeCasts S128x1024
  inb_S128x4096_S128x1024_0_1024 : ∀ a, (![0, 1024] : Fin 2 → Nat) a + S128x1024.size a ≤ S128x4096.size a
  inb_S128x4096_S128x1024_0_2048 : ∀ a, (![0, 2048] : Fin 2 → Nat) a + S128x1024.size a ≤ S128x4096.size a
  inb_S128x4096_S128x1024_0_3072 : ∀ a, (![0, 3072] : Fin 2 → Nat) a + S128x1024.size a ≤ S128x4096.size a
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  inb_S2x128x4096_S1x128x4096_0_0_0 : ∀ a, (![0, 0, 0] : Fin 3 → Nat) a + S1x128x4096.size a ≤ S2x128x4096.size a
  inb_S2x128x4096_S1x128x4096_1_0_0 : ∀ a, (![1, 0, 0] : Fin 3 → Nat) a + S1x128x4096.size a ≤ S2x128x4096.size a
  transposes_S128x4096_p1_0_S4096x128 : S128x4096.Transposes [1, 0] S4096x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  dot_S4000x128_S128x64_S4000x64_1_0_0_1_n_n_wf : DotDims.WF S4000x128 S128x64 S4000x64 [1] [0] [0] [1] [] []
  dot_S4000x64_S64x256_S4000x256_1_0_0_1_n_n_wf : DotDims.WF S4000x64 S64x256 S4000x256 [1] [0] [0] [1] [] []
  dot_S4000x256_S4000x1024_S256x1024_0_0_1_1_n_n_wf : DotDims.WF S4000x256 S4000x1024 S256x1024 [0] [0] [1] [1] [] []
  dot_S4096x128_S128x32_S4096x32_1_0_0_1_n_n_wf : DotDims.WF S4096x128 S128x32 S4096x32 [1] [0] [0] [1] [] []
  dot_S4096x32_S32x16_S4096x16_1_0_0_1_n_n_wf : DotDims.WF S4096x32 S32x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .i32 = 32 ∨ (Rect.block (s := S1000000x1) S4000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x4096.size a ≤ S2x128x4096.size a
  hwx0_6 : ∀ i : grid0.Coords, EltTy.bits .f32 = 32 ∨ (Rect.block (s := S2x128x4096) S1x128x4096.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x128x4096.size a ≤ S2x128x4096.size a
  hwx1_0 : ∀ i : grid1.Coords, EltTy.bits .f32 = 32 ∨ (Rect.block (s := S2x128x4096) S2x128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x16.size a ≤ S4096x16.size a
  hwx1_5 : ∀ i : grid1.Coords, EltTy.bits .f32 = 32 ∨ (Rect.block (s := S4096x16) S4096x16.size (cc1_transform_5 i) (hinb1_5 i)).WholeWords (EltTy.packing .f32)

variable [Facts₀]

def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S4000x1024_S256x1024_0_0_1_1_n_n : DotDims S4000x256 S4000x1024 S256x1024 where
  lhsContracting := [0]
  rhsContracting := [0]
  lhsNonContracting := [1]
  rhsNonContracting := [1]
  lhsBatch := []
  rhsBatch := []
  wf := dot_S4000x256_S4000x1024_S256x1024_0_0_1_1_n_n_wf
def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v1) S2x128x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S4096x16.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S128x64 : Shape := ⟨2, ![128, 64]⟩
abbrev S64 : Shape := ⟨1, ![64]⟩
abbrev S64x256 : Shape := ⟨2, ![64, 256]⟩
abbrev S256 : Shape := ⟨1, ![256]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1000000x64 : Shape := ⟨2, ![1000000, 64]⟩
abbrev S1x64 : Shape := ⟨2, ![1, 64]⟩
abbrev S_ : Shape := ⟨0, ![]⟩
abbrev S1000000x256 : Shape := ⟨2, ![1000000, 256]⟩
abbrev S1x256 : Shape := ⟨2, ![1, 256]⟩
abbrev S4096x128 : Shape := ⟨2, ![4096, 128]⟩
abbrev S1000000x1 : Shape := ⟨2, ![1000000, 1]⟩
abbrev S4096x32 : Shape := ⟨2, ![4096, 32]⟩
abbrev S1x32 : Shape := ⟨2, ![1, 32]⟩
abbrev S4096x16 : Shape := ⟨2, ![4096, 16]⟩
abbrev S1x16 : Shape := ⟨2, ![1, 16]⟩

abbrev nBuf : Space → Nat
  | .hbm => 47
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x64, .f32⟩
  | .hbm, ⟨3, _⟩ => ⟨S64, .f32⟩
  | .hbm, ⟨4, _⟩ => ⟨S64x256, .f32⟩
  | .hbm, ⟨5, _⟩ => ⟨S256, .f32⟩
  | .hbm, ⟨6, _⟩ => ⟨S128x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S1000000x64, .f32⟩
  | .hbm, ⟨11, _⟩ => ⟨S1x64, .f32⟩
  | .hbm, ⟨12, _⟩ => ⟨S1000000x64, .f32⟩
  | .hbm, ⟨13, _⟩ => ⟨S1000000x64, .f32⟩
  | .hbm, ⟨14, _⟩ => ⟨S_, .f32⟩
  | .hbm, ⟨15, _⟩ => ⟨S1000000x64, .f32⟩
  | .hbm, ⟨16, _⟩ => ⟨S1000000x64, .f32⟩
  | .hbm, ⟨17, _⟩ => ⟨S1000000x256, .f32⟩
  | .hbm, ⟨18, _⟩ => ⟨S1x256, .f32⟩
  | .hbm, ⟨19, _⟩ => ⟨S1000000x256, .f32⟩
  | .hbm, ⟨20, _⟩ => ⟨S1000000x256, .f32⟩
  | .hbm, ⟨21, _⟩ => ⟨S1000000x128, .f32⟩
  | .hbm, ⟨22, _⟩ => ⟨S1000000x128, .f32⟩
  | .hbm, ⟨23, _⟩ => ⟨S1000000x128, .f32⟩
  | .hbm, ⟨24, _⟩ => ⟨S_, .f32⟩
  | .hbm, ⟨25, _⟩ => ⟨S1000000x128, .f32⟩
  | .hbm, ⟨26, _⟩ => ⟨S1000000x128, .f32⟩
  | .hbm, ⟨27, _⟩ => ⟨S_, .f32⟩
  | .hbm, ⟨28, _⟩ => ⟨S1000000x128, .f32⟩
  | .hbm, ⟨29, _⟩ => ⟨S1000000x128, .f32⟩
  | .hbm, ⟨30, _⟩ => ⟨S1000000x128, .f32⟩
  | .hbm, ⟨31, _⟩ => ⟨S1000000x128, .f32⟩
  | .hbm, ⟨32, _⟩ => ⟨S_, .f32⟩
  | .hbm, ⟨33, _⟩ => ⟨S4096x128, .f32⟩
  | .hbm, ⟨34, _⟩ => ⟨S1000000x1, .i32⟩
  | .hbm, ⟨35, _⟩ => ⟨S4096x128, .f32⟩
  | .hbm, ⟨36, _⟩ => ⟨S4096x32, .f32⟩
  | .hbm, ⟨37, _⟩ => ⟨S1x32, .f32⟩
  | .hbm, ⟨38, _⟩ => ⟨S4096x32, .f32⟩
  | .hbm, ⟨39, _⟩ => ⟨S4096x32, .f32⟩
  | .hbm, ⟨40, _⟩ => ⟨S_, .f32⟩
  | .hbm, ⟨41, _⟩ => ⟨S4096x32, .f32⟩
  | .hbm, ⟨42, _⟩ => ⟨S4096x32, .f32⟩
  | .hbm, ⟨43, _⟩ => ⟨S4096x16, .f32⟩
  | .hbm, ⟨44, _⟩ => ⟨S1x16, .f32⟩
  | .hbm, ⟨45, _⟩ => ⟨S4096x16, .f32⟩
  | .hbm, ⟨46, _⟩ => ⟨S4096x16, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S256_S1x256_1 : S256.BroadcastsInDim S1x256 (![1] : Fin 1 → Fin S1x256.rank)
  bcast_S1x256_S1000000x256_0_1 : S1x256.BroadcastsInDim S1000000x256 (![0, 1] : Fin 2 → Fin S1000000x256.rank)
  slices_S1000000x256_S1000000x128_0_0 : S1000000x256.Slices ![0, 0] S1000000x128
  bcast_S_S1000000x128 : S_.BroadcastsInDim S1000000x128 (![] : Fin 0 → Fin S1000000x128.rank)
  slices_S1000000x256_S1000000x128_0_128 : S1000000x256.Slices ![0, 128] S1000000x128
  bcast_S_S4096x128 : S_.BroadcastsInDim S4096x128 (![] : Fin 0 → Fin S4096x128.rank)
  bcast_S1000000_S1000000x1_0 : S1000000.BroadcastsInDim S1000000x1 (![0] : Fin 1 → Fin S1000000x1.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  dot_S1000000x128_S128x64_S1000000x64_1_0_0_1_n_n_wf : DotDims.WF S1000000x128 S128x64 S1000000x64 [1] [0] [0] [1] [] []
  dot_S1000000x64_S64x256_S1000000x256_1_0_0_1_n_n_wf : DotDims.WF S1000000x64 S64x256 S1000000x256 [1] [0] [0] [1] [] []
  scatter_S4096x128_S1000000x1_S1000000x128_1_0_0_1_wf : ScatterDims.WF S4096x128 S1000000x1 S1000000x128 [1] [0] [0] 1
  dot_S4096x128_S128x32_S4096x32_1_0_0_1_n_n_wf : DotDims.WF S4096x128 S128x32 S4096x32 [1] [0] [0] [1] [] []
  dot_S4096x32_S32x16_S4096x16_1_0_0_1_n_n_wf : DotDims.WF S4096x32 S32x16 S4096x16 [1] [0] [0] [1] [] []

variable [Facts₀]

def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x256_S1000000x256_1_0_0_1_n_n : DotDims S1000000x64 S64x256 S1000000x256 where
  lhsContracting := [1]
  rhsContracting := [0]
  lhsNonContracting := [0]
  rhsNonContracting := [1]
  lhsBatch := []
  rhsBatch := []
  wf := dot_S1000000x64_S64x256_S1000000x256_1_0_0_1_n_n_wf
def scatter_S4096x128_S1000000x1_S1000000x128_1_0_0_1 : ScatterDims S4096x128 S1000000x1 S1000000x128 where
  updateWindowDims := [1]
  insertedWindowDims := [0]
  scatterDimsToOperandDims := [0]
  indexVectorDim := 1
  wf := scatter_S4096x128_S1000000x1_S1000000x128_1_0_0_1_wf
def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf

class Facts : Prop extends Facts₀ where

variable [Facts]
-- ==== Proof.KB.R0Base.lean ====
import proofs.«412652_j15187004358828_3_alg».proof.Proof.Gen.Kernel.Launch
import proofs.«412652_j15187004358828_3_alg».proof.Proof.Gen.Kernel.Skeleton
import proofs.«412652_j15187004358828_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 (the segment-sum kernel on its 2 x 125 grid), what every case of its body shares. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Window `w`'s block at grid point `t`: the part of its array the point's index map selects. -/
def iblk0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's two branch conditions, in closed form over the linear point: the inner grid coordinate is 0; it is 124. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1
theorem hcond0 : ∀ t : Fin cfg0.N, (cond0_0 (grid0.coords t) ↔ t.val % 125 = 0) ∧ (cond0_1 (grid0.coords t) ↔ t.val % 125 = 124) :=
  (by decide +kernel : ∀ t : Fin grid0.N, _)

theorem liveAt0 : ∀ (w : Fin cfg0.W) (t : Fin cfg0.N), w.val < 6 ∨ t.val % 125 = 124 → cfg0.idle w (grid0.coords t) = false := by decide +kernel
theorem idleAt0_6 : ∀ t : Fin cfg0.N, ¬t.val % 125 = 124 → cfg0.idle 6 (grid0.coords t) = true ∧ (cfg0.win 6).flush t = false := by decide +kernel

abbrev VO0_6 : View sig .tc .vmem S1x128x4096 .f32 := (Memref.whole cc0_stg6_0 : Memref sig .tc .vmem S1x128x4096 .f32).view
abbrev ms0_0 (t : Fin cfg0.N) : Memref sig .tc .vmem S4000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x4096 .f32 := win0_6.stage (cfg0.slots t 6)
abbrev hs0_6 (t : Fin cfg0.N) : (ms0_6 t).IsWhole := hstage0_6 ((cfg0.slots t 6).cast nbuf0_6)
abbrev scM0_0 : Memref sig .tc .vmem S128x4096 .f32 := Memref.whole cc0_scratch0
abbrev VS0_0 : View sig .tc .vmem S128x4096 .f32 := scM0_0.view

abbrev restS (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

theorem PhiA0_eq (c : Dev nD) :
    (Pipeline.ΦA spec0 c : sProp 𝕄) = iprop(iprop((∃ d, owns (c : Thread nD τ) scM0_0 fullShare d) ∗ restS c) ∗ (∃ r, prngReg c r)) := by
  unfold Pipeline.ΦA; rw [scopedRest0_eq]; simp only [scM0_0, owns_whole]; try rfl

theorem owns_unread {sp : Space} {sh : Shape} {e : EltTy} (c : Dev nD) {m : Memref sig .tc sp sh e} (h : m.IsWhole) (x : sh.Idx → Elt F e) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; · ipureintro; exact h.read_unread _
  iexact H

end Cert.Kernel.Hand

end
-- ==== Proof.KB.R0Run.lean ====
import proofs.«412652_j15187004358828_3_alg».proof.Proof.KB.R0Base

/-! Region 0's body, run once in each of its three cases: each run finds the pieces its stores leave in the output block and in the accumulator. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S128x64 .f32) (harg4 : arg4.IsWhole) (arg5 : Memref sig .tc .vmem S64 .f32) (harg5 : arg5.IsWhole) (arg6 : Memref sig .tc .vmem S64x256 .f32) (harg6 : arg6.IsWhole) (arg7 : Memref sig .tc .vmem S256 .f32) (harg7 : arg7.IsWhole) (arg8 : Memref sig .tc .vmem S1x128x4096 .f32) (harg8 : arg8.IsWhole) (arg9 : Memref sig .tc .vmem S128x4096 .f32) (harg9 : arg9.IsWhole)

section
variable (hc0 : cond0_0 i) (hc1 : ¬cond0_1 i) (x0 : Vec F S4000x128 .f32) (x1 : Vec F S4000x1 .i32) (x2 : Vec F S128x64 .f32) (x3 : Vec F S64 .f32) (x4 : Vec F S64x256 .f32) (x5 : Vec F S256 .f32)
include hc0 hc1
set_option maxHeartbeats 4000000 in

/-- First point of a half: the accumulator is reset. -/
noncomputable def kernelRun0_A :
    Σ' (L6 : List (View.Piece (Elt F) S1x128x4096 .f32)), { LS0 : List (View.Piece (Elt F) S128x4096 .f32) //
      ∀ (xi6 : Vec F S1x128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__seg_kernel i arg2 harg2 arg3 harg3 arg4 harg4 arg5 harg5 arg6 harg6 arg7 harg7 arg8 harg8 arg9 harg9) K } := by
  refine ⟨[], ?_, fun xi6 E K => ?run⟩
  case run =>
    simp only [cc0__seg_kernel_eq_skeleton]; unfold cc0__seg_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    isplitl [H6]; · iapply owns_unread c harg8; iexact H6
    iexists _; iexact HS0
end

section
variable (hc0 : ¬cond0_0 i) (hc1 : ¬cond0_1 i) (x0 : Vec F S4000x128 .f32) (x1 : Vec F S4000x1 .i32) (x2 : Vec F S128x64 .f32) (x3 : Vec F S64 .f32) (x4 : Vec F S64x256 .f32) (x5 : Vec F S256 .f32) (xs0 : Vec F S128x4096 .f32)
include hc0 hc1
set_option maxHeartbeats 4000000 in

/-- A point inside a half: the accumulator grows. -/
noncomputable def kernelRun0_B :
    Σ' (L6 : List (View.Piece (Elt F) S1x128x4096 .f32)), { LS0 : List (View.Piece (Elt F) S128x4096 .f32) //
      ∀ (xi6 : Vec F S1x128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__seg_kernel i arg2 harg2 arg3 harg3 arg4 harg4 arg5 harg5 arg6 harg6 arg7 harg7 arg8 harg8 arg9 harg9) K } := by
  refine ⟨[], ?_, fun xi6 E K => ?run⟩
  case run =>
    simp only [cc0__seg_kernel_eq_skeleton]; unfold cc0__seg_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    isplitl [H6]; · iapply owns_unread c harg8; iexact H6
    iexists _; iexact HS0
end

section
variable (hc0 : ¬cond0_0 i) (hc1 : cond0_1 i) (x0 : Vec F S4000x128 .f32) (x1 : Vec F S4000x1 .i32) (x2 : Vec F S128x64 .f32) (x3 : Vec F S64 .f32) (x4 : Vec F S64x256 .f32) (x5 : Vec F S256 .f32) (xs0 : Vec F S128x4096 .f32)
include hc0 hc1
set_option maxHeartbeats 4000000 in

/-- Last point of a half: the accumulator grows and is copied to the output block. -/
noncomputable def kernelRun0_C :
    Σ' (L6 : List (View.Piece (Elt F) S1x128x4096 .f32)), { LS0 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__seg_kernel i arg2 harg2 arg3 harg3 arg4 harg4 arg5 harg5 arg6 harg6 arg7 harg7 arg8 harg8 arg9 harg9) K } := by
  refine ⟨?_, ?_, fun E K => ?run⟩
  case run =>
    simp only [cc0__seg_kernel_eq_skeleton]; unfold cc0__seg_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    isplitl [H6]; · iexists _; iexact H6
    iexists _; iexact HS0
end

end Cert.Kernel.Hand

end
-- ==== Proof.KB.R0Frame.lean ====
import proofs.«412652_j15187004358828_3_alg».proof.Proof.KB.R0Run

/-! Region 0, point by point: what the output block and the accumulator hold after each linear point (the point's case, run over what the point before left in the accumulator), the region invariant that carries the accumulator from one point to the next, and the body at every point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- What a list of stored pieces leaves in the output block, and in the accumulator, read back. -/
abbrev rdO (L : List (View.Piece (Elt F) S1x128x4096 .f32)) : Vec F S1x128x4096 .f32 := VO0_6.read (Elt F) (VO0_6.writes (Elt F) VO0_6.junk L)
abbrev rdS (L : List (View.Piece (Elt F) S128x4096 .f32)) : Vec F S128x4096 .f32 := VS0_0.read (Elt F) (VS0_0.writes (Elt F) VS0_0.junk L)

section Point
variable (c : Dev nD) (t : Fin cfg0.N)

/-- Each case's run at grid point `t`, on the point's input blocks. -/
abbrev runA (h0 : t.val % 125 = 0) (h1 : ¬t.val % 125 = 124) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0 t).1.mpr h0) (fun h => h1 ((hcond0 t).2.mp h)) (iblk0 V c 0 t) (iblk0 V c 1 t) (iblk0 V c 2 t) (iblk0 V c 3 t) (iblk0 V c 4 t) (iblk0 V c 5 t)
abbrev runB (h0 : ¬t.val % 125 = 0) (h1 : ¬t.val % 125 = 124) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0 t).1.mp h)) (fun h => h1 ((hcond0 t).2.mp h)) (iblk0 V c 0 t) (iblk0 V c 1 t) (iblk0 V c 2 t) (iblk0 V c 3 t) (iblk0 V c 4 t) (iblk0 V c 5 t)
abbrev runC (h0 : ¬t.val % 125 = 0) (h1 : t.val % 125 = 124) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0 t).1.mp h)) ((hcond0 t).2.mpr h1) (iblk0 V c 0 t) (iblk0 V c 1 t) (iblk0 V c 2 t) (iblk0 V c 3 t) (iblk0 V c 4 t) (iblk0 V c 5 t)

/-- What each case leaves in the output block and in the accumulator. -/
def outA (h0 : t.val % 125 = 0) (h1 : ¬t.val % 125 = 124) : Vec F S1x128x4096 .f32 × Vec F S128x4096 .f32 :=
  (rdO (runA V c t h0 h1).1, rdS (runA V c t h0 h1).2.1)
def outB (h0 : ¬t.val % 125 = 0) (h1 : ¬t.val % 125 = 124) (xs0 : Vec F S128x4096 .f32) : Vec F S1x128x4096 .f32 × Vec F S128x4096 .f32 :=
  (rdO (runB V c t h0 h1 xs0).1, rdS (runB V c t h0 h1 xs0).2.1)
def outC (h0 : ¬t.val % 125 = 0) (h1 : t.val % 125 = 124) (xs0 : Vec F S128x4096 .f32) : Vec F S1x128x4096 .f32 × Vec F S128x4096 .f32 :=
  (rdO (runC V c t h0 h1 xs0).1, rdS (runC V c t h0 h1 xs0).2.1)

end Point

/-- The two after the body at linear point `n`: the point's case, over what the point before left in the accumulator. -/
def outsAt0 (c : Dev nD) : (n : ℕ) → n < cfg0.N → Vec F S1x128x4096 .f32 × Vec F S128x4096 .f32
  | 0, hn => outA V c ⟨0, hn⟩ (Nat.zero_mod _) (by dsimp only; omega)
  | n + 1, hn =>
    if h0 : (n + 1) % 125 = 0 then outA V c ⟨n + 1, hn⟩ h0 (by dsimp only; omega)
    else if h1 : (n + 1) % 125 = 124 then outC V c ⟨n + 1, hn⟩ h0 h1 (outsAt0 c n (Nat.lt_of_succ_lt hn)).2
    else outB V c ⟨n + 1, hn⟩ h0 h1 (outsAt0 c n (Nat.lt_of_succ_lt hn)).2

theorem outsAt0_A (c : Dev nD) (t : Fin cfg0.N) (h0 : t.val % 125 = 0) (h1 : ¬t.val % 125 = 124) :
    outsAt0 V c t.val t.isLt = outA V c t h0 h1 := by
  obtain ⟨_ | n, hn⟩ := t
  · rfl
  · exact (dif_pos h0).trans rfl

theorem outsAt0_B (c : Dev nD) (t : Fin cfg0.N) (h0 : ¬t.val % 125 = 0) (h1 : ¬t.val % 125 = 124) :
    outsAt0 V c t.val t.isLt = outB V c t h0 h1 (outsAt0 V c (t.val - 1) (Nat.lt_of_le_of_lt (Nat.sub_le _ _) t.isLt)).2 := by
  obtain ⟨_ | n, hn⟩ := t
  · exact absurd (Nat.zero_mod _) h0
  · exact (dif_neg h0).trans ((dif_neg h1).trans rfl)

theorem outsAt0_C (c : Dev nD) (t : Fin cfg0.N) (h0 : ¬t.val % 125 = 0) (h1 : t.val % 125 = 124) :
    outsAt0 V c t.val t.isLt = outC V c t h0 h1 (outsAt0 V c (t.val - 1) (Nat.lt_of_le_of_lt (Nat.sub_le _ _) t.isLt)).2 := by
  obtain ⟨_ | n, hn⟩ := t
  · exact absurd (Nat.zero_mod _) h0
  · exact (dif_neg h0).trans ((dif_pos h1).trans rfl)

/-- The invariant before linear point `n`: the accumulator holds what the point before left in it (anything, before the first point). -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS c) ∗ (∃ r, prngReg c r))

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS c) ∗ (∃ r, prngReg c r)) := by
  cases n with
  | zero => exact absurd rfl hz
  | succ n => rfl

/-- At every point the invariant gives the one before the first point: the accumulator's contents are forgotten. -/
theorem PhiS_weaken (c : Dev nD) : ∀ (n : ℕ) (h : n ≤ cfg0.N), PhiS V c n h ⊢ Pipeline.ΦA spec0 c
  | 0, _ => .rfl
  | n + 1, h => by
    rw [PhiA0_eq]; unfold PhiS
    iintro ⟨⟨HS0, HR⟩, Hg⟩
    iframe HR Hg
    iexists _; iexact HS0

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q _ := fullShare
  owed _ := 0

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

theorem leaves0_0 (c : Dev nD) (t : Fin cfg0.N) : (dat0 V c).leavesExact 0 t = owns (c : Thread nD τ) (ms0_0 t) fullShare (iblk0 V c 0 t) := by
  unfold Dat.leavesExact; rw [liveAt0 0 t (.inl (by decide))]; rfl
theorem leaves0_1 (c : Dev nD) (t : Fin cfg0.N) : (dat0 V c).leavesExact 1 t = owns (c : Thread nD τ) (ms0_1 t) fullShare (iblk0 V c 1 t) := by
  unfold Dat.leavesExact; rw [liveAt0 1 t (.inl (by decide))]; rfl
theorem leaves0_2 (c : Dev nD) (t : Fin cfg0.N) : (dat0 V c).leavesExact 2 t = owns (c : Thread nD τ) (ms0_2 t) fullShare (iblk0 V c 2 t) := by
  unfold Dat.leavesExact; rw [liveAt0 2 t (.inl (by decide))]; rfl
theorem leaves0_3 (c : Dev nD) (t : Fin cfg0.N) : (dat0 V c).leavesExact 3 t = owns (c : Thread nD τ) (ms0_3 t) fullShare (iblk0 V c 3 t) := by
  unfold Dat.leavesExact; rw [liveAt0 3 t (.inl (by decide))]; rfl
theorem leaves0_4 (c : Dev nD) (t : Fin cfg0.N) : (dat0 V c).leavesExact 4 t = owns (c : Thread nD τ) (ms0_4 t) fullShare (iblk0 V c 4 t) := by
  unfold Dat.leavesExact; rw [liveAt0 4 t (.inl (by decide))]; rfl
theorem leaves0_5 (c : Dev nD) (t : Fin cfg0.N) : (dat0 V c).leavesExact 5 t = owns (c : Thread nD τ) (ms0_5 t) fullShare (iblk0 V c 5 t) := by
  unfold Dat.leavesExact; rw [liveAt0 5 t (.inl (by decide))]; rfl
theorem leaves0_6 (c : Dev nD) (t : Fin cfg0.N) (h1 : t.val % 125 = 124) :
    (dat0 V c).leavesExact 6 t = owns (c : Thread nD τ) (ms0_6 t) fullShare (outsAt0 V c t.val t.isLt).1 := by
  unfold Dat.leavesExact; rw [liveAt0 6 t (.inr h1)]; rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    show (dat0 V c).Φ t.succ = iprop(iprop(owns (c : Thread nD τ) scM0_0 fullShare ((outsAt0 V c t.val t.isLt).2) ∗ restS c) ∗ (∃ r, prngReg c r)) from rfl,
    show (dat0 V c).Φ t.castSucc = PhiS V c t.val (Nat.le_of_lt t.isLt) from by dsimp only [dat0]; simp only [Fin.coe_castSucc],
    leaves0_0, leaves0_1, leaves0_2, leaves0_3, leaves0_4, leaves0_5]
  have hN : t.val < 250 := lt_of_lt_of_eq t.isLt (show cfg0.N = 250 from N_0)
  by_cases h1 : t.val % 125 = 124
  · have h0 : ¬t.val % 125 = 0 := by omega
    rw [leaves0_6 V c t h1, PhiS_pos V c _ _ (by omega), outsAt0_C V c t h0 h1]
    unfold outC; dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runC V c t h0 h1 _).2.2 Set.univ _)
    iframe H0 H1 H2 H3 H4 H5 HS0
    isplitl [H6]; · iexists _; iexact H6
    iintro ⟨H0, H1, H2, H3, H4, H5, ⟨%e6, H6⟩, ⟨%es0, HS0⟩⟩
    iframe HR Hg Ho H0 H1 H2 H3 H4 H5
    isplitl [HS0]
    · ihave H' := (Ring.owns_of_writes_tiledL VS0_0 S128x1024.size) $$ HS0; iapply H'; ipureintro; sl_kernel_rfl
    ihave H' := (Ring.owns_of_writes_tiledL VO0_6 S1x128x4096.size) $$ H6; iapply H'; ipureintro; sl_kernel_rfl
  · rw [Dat.leavesExact_idle (dat0 V c) 6 t (idleAt0_6 t h1).1 (idleAt0_6 t h1).2]
    by_cases h0 : t.val % 125 = 0
    · rw [outsAt0_A V c t h0 h1]
      unfold outA; dsimp only
      refine (sep_mono (PhiS_weaken V c _ _) .rfl).trans ?_
      rw [PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0 h1).2.2 _ Set.univ _)
      iframe H0 H1 H2 H3 H4 H5 H6 HS0
      iintro ⟨H0, H1, H2, H3, H4, H5, H6, ⟨%es0, HS0⟩⟩
      iframe HR Hg Ho H0 H1 H2 H3 H4 H5
      isplitl [HS0]
      · ihave H' := (Ring.owns_of_writes_tiledL VS0_0 S128x1024.size) $$ HS0; iapply H'; ipureintro; sl_kernel_rfl
      iexists _; iexact H6
    · rw [PhiS_pos V c _ _ (by omega), outsAt0_B V c t h0 h1]
      unfold outB; dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t h0 h1 _).2.2 _ Set.univ _)
      iframe H0 H1 H2 H3 H4 H5 H6 HS0
      iintro ⟨H0, H1, H2, H3, H4, H5, H6, ⟨%es0, HS0⟩⟩
      iframe HR Hg Ho H0 H1 H2 H3 H4 H5
      isplitl [HS0]
      · ihave H' := (Ring.owns_of_writes_tiledL VS0_0 S128x1024.size) $$ HS0; iapply H'; ipureintro; sl_kernel_rfl
      iexists _; iexact H6

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.R1Frame.lean ====
import proofs.«412652_j15187004358828_3_alg».proof.Proof.KB.R0Base

/-! Region 1 (the kernel that adds the two halves' sums, transposes, and applies the graph network; one grid point): its body run once, which finds the pieces its one store leaves in the output block, and the body at the point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`: the part of its array the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1_5 : View sig .tc .vmem S4096x16 .f32 := (Memref.whole cc1_stg5_0 : Memref sig .tc .vmem S4096x16 .f32).view
abbrev ms1_0 (t : Fin cfg1.N) : Memref sig .tc .vmem S2x128x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x16 .f32 := win1_5.stage (cfg1.slots t 5)
abbrev hs1_5 (t : Fin cfg1.N) : (ms1_5 t).IsWhole := hstage1_5 ((cfg1.slots t 5).cast nbuf1_5)

section
variable (c : Dev nD) (i : grid1.Coords) (arg1 : Memref sig .tc .vmem S2x128x4096 .f32) (harg1 : arg1.IsWhole) (arg2 : Memref sig .tc .vmem S128x32 .f32) (harg2 : arg2.IsWhole) (arg3 : Memref sig .tc .vmem S32 .f32) (harg3 : arg3.IsWhole) (arg4 : Memref sig .tc .vmem S32x16 .f32) (harg4 : arg4.IsWhole) (arg5 : Memref sig .tc .vmem S16 .f32) (harg5 : arg5.IsWhole) (arg6 : Memref sig .tc .vmem S4096x16 .f32) (harg6 : arg6.IsWhole) (x0 : Vec F S2x128x4096 .f32) (x1 : Vec F S128x32 .f32) (x2 : Vec F S32 .f32) (x3 : Vec F S32x16 .f32) (x4 : Vec F S16 .f32)

set_option maxHeartbeats 4000000 in

noncomputable def kernelRun1_A :
    { L5 : List (View.Piece (Elt F) S4096x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__combine_mlp2_kernel i arg1 harg1 arg2 harg2 arg3 harg3 arg4 harg4 arg5 harg5 arg6 harg6) K } := by
  refine ⟨?_, fun E K => ?run⟩
  case run =>
    simp only [cc1__combine_mlp2_kernel_eq_skeleton]; unfold cc1__combine_mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]; · iapply owns_unread c harg1; iexact H0
    isplitl [H1]; · iapply owns_unread c harg2; iexact H1
    isplitl [H2]; · iapply owns_unread c harg3; iexact H2
    isplitl [H3]; · iapply owns_unread c harg4; iexact H3
    isplitl [H4]; · iapply owns_unread c harg5; iexact H4
    iexists _; iexact H5

/-- What the run leaves in the output block: its pieces read back. -/
def out1_A_5 : Vec F S4096x16 .f32 :=
  VO1_5.read (Elt F) (VO1_5.writes (Elt F) VO1_5.junk (kernelRun1_A c i arg1 harg1 arg2 harg2 arg3 harg3 arg4 harg4 arg5 harg5 arg6 harg6 x0 x1 x2 x3 x4).1)
end

def outsAt1 (c : Dev nD) (t : Fin cfg1.N) : Vec F S4096x16 .f32 :=
  out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1 V c t
  Φ _ := Pipeline.ΦA spec1 c
  q _ := fullShare
  owed _ := 0

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl, show (dat1 V c).owesAt () t.succ = (dat1 V c).owesAt () t.castSucc from rfl,
    show (dat1 V c).after 0 t = iblk1 V c 0 t from by dsimp only [dat1], show (dat1 V c).after 1 t = iblk1 V c 1 t from by dsimp only [dat1], show (dat1 V c).after 2 t = iblk1 V c 2 t from by dsimp only [dat1], show (dat1 V c).after 3 t = iblk1 V c 3 t from by dsimp only [dat1], show (dat1 V c).after 4 t = iblk1 V c 4 t from by dsimp only [dat1],
    show (dat1 V c).after 5 t = outsAt1 V c t from by dsimp only [dat1]]
  unfold outsAt1 out1_A_5
  iintro ⟨HΦ, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ (iblk1 V c 0 t) (iblk1 V c 1 t) (iblk1 V c 2 t) (iblk1 V c 3 t) (iblk1 V c 4 t)).2 Set.univ _)
  iframe H0 H1 H2 H3 H4
  isplitl [H5]; · iexists _; iexact H5
  iintro ⟨H0, H1, H2, H3, H4, ⟨%e5, H5⟩⟩
  iframe HΦ Ho H0 H1 H2 H3 H4
  ihave H' := (Ring.owns_of_writes_tiledL VO1_5 S4096x16.size) $$ H5; iapply H'; ipureintro; sl_kernel_rfl

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KB.Run.lean ====
import proofs.«412652_j15187004358828_3_alg».proof.Proof.KB.R0Frame
import proofs.«412652_j15187004358828_3_alg».proof.Proof.KB.R1Frame
import proofs.«412652_j15187004358828_3_alg».proof.Proof.Gen.Kernel.Regions

/-! The whole program: the index array reshaped to a column, region 0, region 1. After each region its arrays hold what the region leaves and every other buffer is as entered; every weakly fair execution terminates without a fault; no item changes an argument array, and the result buffer ends at region 1's result array. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev U1 : (c : Dev nD) → (b : Ref sig .tc) → Buf (Elt F) ((c : Thread nD τ).loc b) := fun c b => V1 m c b
def W2 (c : Dev nD) : Valuation τ sig (Elt F) := Pipeline.withArrays spec0 c (V1 m c) fun w => (dat0 (U1 m) c).arrAt w cfg0.N
abbrev U2 : (c : Dev nD) → (b : Ref sig .tc) → Buf (Elt F) ((c : Thread nD τ).loc b) := fun c b => W2 m c b
def W3 (c : Dev nD) : Valuation τ sig (Elt F) := Pipeline.withArrays spec1 c (W2 m c) fun w => (dat1 (U2 m) c).arrAt w cfg1.N
abbrev U3 : (c : Dev nD) → (b : Ref sig .tc) → Buf (Elt F) ((c : Thread nD τ).loc b) := fun c b => W3 m c b

theorem W2_arr (c : Dev nD) (w : Fin cfg0.W) : W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) : W2 m c (Proc.devRef .tc b) = V1 m c (Proc.devRef .tc b) := by
  unfold W2; exact Pipeline.withArrays_of_ne spec0 c _ _ b hb
theorem W3_arr (c : Dev nD) (w : Fin cfg1.W) : W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) : W3 m c (Proc.devRef .tc b) = W2 m c (Proc.devRef .tc b) := by
  unfold W3; exact Pipeline.withArrays_of_ne spec1 c _ _ b hb

/-- A region leaves an input window's array as it found it. -/
theorem W2_in (c : Dev nD) (w : Fin cfg0.W) (hw : (cfg0.win w).isOut = false) :
    W2 m c (Proc.devRef .tc (Pipeline.arrRef spec0 w)) = V1 m c (Proc.devRef .tc (Pipeline.arrRef spec0 w)) :=
  (W2_arr m c w).trans ((dat0 (U1 m) c).arrAt_in w hw _)
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans ((dat1 (U2 m) c).arrAt_in w hw _)

def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W3 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 0 c).Φ 0 = Pipeline.ΦA spec0 c from rfl]; unfold Pipeline.ΦA
    iintro ⟨Hp, -, Hr⟩
    iframe Hr Hp
  hout c := by
    rw [Pipeline.ownSems0_none]
    refine (show (dat0 (U1 m) c).Φ (Fin.last cfg0.N) ⊢ Pipeline.ΦA spec0 c from PhiS_weaken (U1 m) c (Fin.last cfg0.N).val (Nat.le_of_lt_succ (Fin.last cfg0.N).isLt)).trans ?_
    unfold Pipeline.ΦA
    iintro ⟨Hr, Hp⟩
    iframe Hp Hr
    iempintro
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 1 c).Φ 0 = Pipeline.ΦA spec1 c from rfl]; unfold Pipeline.ΦA
    iintro ⟨Hp, -, Hr⟩
    iframe Hr Hp
  hout c := by
    rw [Pipeline.ownSems0_none]
    rw [show (pdats m 1 c).Φ (Fin.last _) = Pipeline.ΦA spec1 c from rfl]; unfold Pipeline.ΦA
    iintro ⟨Hr, Hp⟩
    iframe Hp Hr
    iempintro
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (fun w => (W3_arr m c w).symm)
      (fun b hb => W3_of_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [.host (seg0 m 𝒱₀ L lv fun _ => R), .region (reg0 m), .region (reg1 m)]

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [(main_chain c).trans (by chain_rfl : _ = Pipeline.Seg.run (segs m))])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the buffers named: the result buffer ends at region 1's result array, and every argument array as launched
    (the reshape writes only its own result; a region changes only its output window's array). -/
theorem run_result (ρ : Dev nD → PrngReg) : θ_run defs (onTc (τ := τ) (main (F := F))) ⟨m, fun _ => 0, ρ⟩ (fun r => ∀ c : Dev nD,
      r.2.mem ((c.tc : Thread nD τ).loc main_v2) = (dat1 (U2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v2 (by decide))).trans (W3_arr m c 5),
     (h c _ (mem_uc main_arg0 (by decide))).trans ((W3_of_ne m c main_arg0 (by decide)).trans ((W2_in m c 0 rfl).trans (V1_of m c main_arg0 (by decide)))),
     (h c _ (mem_uc main_arg1 (by decide))).trans ((W3_of_ne m c main_arg1 (by decide)).trans ((W2_of_ne m c main_arg1 (by decide)).trans (V1_of m c main_arg1 (by decide)))),
     (h c _ (mem_uc main_arg2 (by decide))).trans ((W3_of_ne m c main_arg2 (by decide)).trans ((W2_in m c 2 rfl).trans (V1_of m c main_arg2 (by decide)))),
     (h c _ (mem_uc main_arg3 (by decide))).trans ((W3_of_ne m c main_arg3 (by decide)).trans ((W2_in m c 3 rfl).trans (V1_of m c main_arg3 (by decide)))),
     (h c _ (mem_uc main_arg4 (by decide))).trans ((W3_of_ne m c main_arg4 (by decide)).trans ((W2_in m c 4 rfl).trans (V1_of m c main_arg4 (by decide)))),
     (h c _ (mem_uc main_arg5 (by decide))).trans ((W3_of_ne m c main_arg5 (by decide)).trans ((W2_in m c 5 rfl).trans (V1_of m c main_arg5 (by decide)))),
     (h c _ (mem_uc main_arg6 (by decide))).trans ((W3_in m c 1 rfl).trans ((W2_of_ne m c main_arg6 (by decide)).trans (V1_of m c main_arg6 (by decide)))),
     (h c _ (mem_uc main_arg7 (by decide))).trans ((W3_in m c 2 rfl).trans ((W2_of_ne m c main_arg7 (by decide)).trans (V1_of m c main_arg7 (by decide)))),
     (h c _ (mem_uc main_arg8 (by decide))).trans ((W3_in m c 3 rfl).trans ((W2_of_ne m c main_arg8 (by decide)).trans (V1_of m c main_arg8 (by decide)))),
     (h c _ (mem_uc main_arg9 (by decide))).trans ((W3_in m c 4 rfl).trans ((W2_of_ne m c main_arg9 (by decide)).trans (V1_of m c main_arg9 (by decide))))⟩) (run_all m ρ)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_result m ρ)

end Cert.Kernel.Hand

end
-- ==== Proof.KI.R0Base.lean ====
import proofs.«412652_j15187004358828_3_alg».proof.Proof.Gen.KernelIdeal.Launch
import proofs.«412652_j15187004358828_3_alg».proof.Proof.Gen.KernelIdeal.Skeleton
import proofs.«412652_j15187004358828_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 (the segment-sum kernel on its 2 x 125 grid), what every case of its body shares. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Window `w`'s block at grid point `t`: the part of its array the point's index map selects. -/
def iblk0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's two branch conditions, in closed form over the linear point: the inner grid coordinate is 0; it is 124. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1
theorem hcond0 : ∀ t : Fin cfg0.N, (cond0_0 (grid0.coords t) ↔ t.val % 125 = 0) ∧ (cond0_1 (grid0.coords t) ↔ t.val % 125 = 124) :=
  (by decide +kernel : ∀ t : Fin grid0.N, _)

theorem liveAt0 : ∀ (w : Fin cfg0.W) (t : Fin cfg0.N), w.val < 6 ∨ t.val % 125 = 124 → cfg0.idle w (grid0.coords t) = false := by decide +kernel
theorem idleAt0_6 : ∀ t : Fin cfg0.N, ¬t.val % 125 = 124 → cfg0.idle 6 (grid0.coords t) = true ∧ (cfg0.win 6).flush t = false := by decide +kernel

abbrev VO0_6 : View sig .tc .vmem S1x128x4096 .f32 := (Memref.whole cc0_stg6_0 : Memref sig .tc .vmem S1x128x4096 .f32).view
abbrev ms0_0 (t : Fin cfg0.N) : Memref sig .tc .vmem S4000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x4096 .f32 := win0_6.stage (cfg0.slots t 6)
abbrev hs0_6 (t : Fin cfg0.N) : (ms0_6 t).IsWhole := hstage0_6 ((cfg0.slots t 6).cast nbuf0_6)
abbrev scM0_0 : Memref sig .tc .vmem S128x4096 .f32 := Memref.whole cc0_scratch0
abbrev VS0_0 : View sig .tc .vmem S128x4096 .f32 := scM0_0.view

abbrev restS (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

theorem PhiA0_eq (c : Dev nD) :
    (Pipeline.ΦA spec0 c : sProp 𝕄) = iprop(iprop((∃ d, owns (c : Thread nD τ) scM0_0 fullShare d) ∗ restS c) ∗ (∃ r, prngReg c r)) := by
  unfold Pipeline.ΦA; rw [scopedRest0_eq]; simp only [scM0_0, owns_whole]; try rfl

theorem owns_unread {sp : Space} {sh : Shape} {e : EltTy} (c : Dev nD) {m : Memref sig .tc sp sh e} (h : m.IsWhole) (x : sh.Idx → Elt F e) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; · ipureintro; exact h.read_unread _
  iexact H

end Cert.KernelIdeal.Hand

end
-- ==== Proof.KI.R0Run.lean ====
import proofs.«412652_j15187004358828_3_alg».proof.Proof.KI.R0Base

/-! Region 0's body, run once in each of its three cases: each run finds the pieces its stores leave in the output block and in the accumulator. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S128x64 .f32) (harg4 : arg4.IsWhole) (arg5 : Memref sig .tc .vmem S64 .f32) (harg5 : arg5.IsWhole) (arg6 : Memref sig .tc .vmem S64x256 .f32) (harg6 : arg6.IsWhole) (arg7 : Memref sig .tc .vmem S256 .f32) (harg7 : arg7.IsWhole) (arg8 : Memref sig .tc .vmem S1x128x4096 .f32) (harg8 : arg8.IsWhole) (arg9 : Memref sig .tc .vmem S128x4096 .f32) (harg9 : arg9.IsWhole)

section
variable (hc0 : cond0_0 i) (hc1 : ¬cond0_1 i) (x0 : Vec F S4000x128 .f32) (x1 : Vec F S4000x1 .i32) (x2 : Vec F S128x64 .f32) (x3 : Vec F S64 .f32) (x4 : Vec F S64x256 .f32) (x5 : Vec F S256 .f32)
include hc0 hc1
set_option maxHeartbeats 4000000 in

/-- First point of a half: the accumulator is reset. -/
noncomputable def kernelRun0_A :
    Σ' (L6 : List (View.Piece (Elt F) S1x128x4096 .f32)), { LS0 : List (View.Piece (Elt F) S128x4096 .f32) //
      ∀ (xi6 : Vec F S1x128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__seg_kernel i arg2 harg2 arg3 harg3 arg4 harg4 arg5 harg5 arg6 harg6 arg7 harg7 arg8 harg8 arg9 harg9) K } := by
  refine ⟨[], ?_, fun xi6 E K => ?run⟩
  case run =>
    simp only [cc0__seg_kernel_eq_skeleton]; unfold cc0__seg_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    isplitl [H6]; · iapply owns_unread c harg8; iexact H6
    iexists _; iexact HS0
end

section
variable (hc0 : ¬cond0_0 i) (hc1 : ¬cond0_1 i) (x0 : Vec F S4000x128 .f32) (x1 : Vec F S4000x1 .i32) (x2 : Vec F S128x64 .f32) (x3 : Vec F S64 .f32) (x4 : Vec F S64x256 .f32) (x5 : Vec F S256 .f32) (xs0 : Vec F S128x4096 .f32)
include hc0 hc1
set_option maxHeartbeats 4000000 in

/-- A point inside a half: the accumulator grows. -/
noncomputable def kernelRun0_B :
    Σ' (L6 : List (View.Piece (Elt F) S1x128x4096 .f32)), { LS0 : List (View.Piece (Elt F) S128x4096 .f32) //
      ∀ (xi6 : Vec F S1x128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__seg_kernel i arg2 harg2 arg3 harg3 arg4 harg4 arg5 harg5 arg6 harg6 arg7 harg7 arg8 harg8 arg9 harg9) K } := by
  refine ⟨[], ?_, fun xi6 E K => ?run⟩
  case run =>
    simp only [cc0__seg_kernel_eq_skeleton]; unfold cc0__seg_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    isplitl [H6]; · iapply owns_unread c harg8; iexact H6
    iexists _; iexact HS0
end

section
variable (hc0 : ¬cond0_0 i) (hc1 : cond0_1 i) (x0 : Vec F S4000x128 .f32) (x1 : Vec F S4000x1 .i32) (x2 : Vec F S128x64 .f32) (x3 : Vec F S64 .f32) (x4 : Vec F S64x256 .f32) (x5 : Vec F S256 .f32) (xs0 : Vec F S128x4096 .f32)
include hc0 hc1
set_option maxHeartbeats 4000000 in

/-- Last point of a half: the accumulator grows and is copied to the output block. -/
noncomputable def kernelRun0_C :
    Σ' (L6 : List (View.Piece (Elt F) S1x128x4096 .f32)), { LS0 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__seg_kernel i arg2 harg2 arg3 harg3 arg4 harg4 arg5 harg5 arg6 harg6 arg7 harg7 arg8 harg8 arg9 harg9) K } := by
  refine ⟨?_, ?_, fun E K => ?run⟩
  case run =>
    simp only [cc0__seg_kernel_eq_skeleton]; unfold cc0__seg_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    isplitl [H6]; · iexists _; iexact H6
    iexists _; iexact HS0
end

end Cert.KernelIdeal.Hand

end
-- ==== Proof.KI.R0Frame.lean ====
import proofs.«412652_j15187004358828_3_alg».proof.Proof.KI.R0Run

/-! Region 0, point by point: what the output block and the accumulator hold after each linear point (the point's case, run over what the point before left in the accumulator), the region invariant that carries the accumulator from one point to the next, and the body at every point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- What a list of stored pieces leaves in the output block, and in the accumulator, read back. -/
abbrev rdO (L : List (View.Piece (Elt F) S1x128x4096 .f32)) : Vec F S1x128x4096 .f32 := VO0_6.read (Elt F) (VO0_6.writes (Elt F) VO0_6.junk L)
abbrev rdS (L : List (View.Piece (Elt F) S128x4096 .f32)) : Vec F S128x4096 .f32 := VS0_0.read (Elt F) (VS0_0.writes (Elt F) VS0_0.junk L)

section Point
variable (c : Dev nD) (t : Fin cfg0.N)

/-- Each case's run at grid point `t`, on the point's input blocks. -/
abbrev runA (h0 : t.val % 125 = 0) (h1 : ¬t.val % 125 = 124) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0 t).1.mpr h0) (fun h => h1 ((hcond0 t).2.mp h)) (iblk0 V c 0 t) (iblk0 V c 1 t) (iblk0 V c 2 t) (iblk0 V c 3 t) (iblk0 V c 4 t) (iblk0 V c 5 t)
abbrev runB (h0 : ¬t.val % 125 = 0) (h1 : ¬t.val % 125 = 124) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0 t).1.mp h)) (fun h => h1 ((hcond0 t).2.mp h)) (iblk0 V c 0 t) (iblk0 V c 1 t) (iblk0 V c 2 t) (iblk0 V c 3 t) (iblk0 V c 4 t) (iblk0 V c 5 t)
abbrev runC (h0 : ¬t.val % 125 = 0) (h1 : t.val % 125 = 124) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0 t).1.mp h)) ((hcond0 t).2.mpr h1) (iblk0 V c 0 t) (iblk0 V c 1 t) (iblk0 V c 2 t) (iblk0 V c 3 t) (iblk0 V c 4 t) (iblk0 V c 5 t)

/-- What each case leaves in the output block and in the accumulator. -/
def outA (h0 : t.val % 125 = 0) (h1 : ¬t.val % 125 = 124) : Vec F S1x128x4096 .f32 × Vec F S128x4096 .f32 :=
  (rdO (runA V c t h0 h1).1, rdS (runA V c t h0 h1).2.1)
def outB (h0 : ¬t.val % 125 = 0) (h1 : ¬t.val % 125 = 124) (xs0 : Vec F S128x4096 .f32) : Vec F S1x128x4096 .f32 × Vec F S128x4096 .f32 :=
  (rdO (runB V c t h0 h1 xs0).1, rdS (runB V c t h0 h1 xs0).2.1)
def outC (h0 : ¬t.val % 125 = 0) (h1 : t.val % 125 = 124) (xs0 : Vec F S128x4096 .f32) : Vec F S1x128x4096 .f32 × Vec F S128x4096 .f32 :=
  (rdO (runC V c t h0 h1 xs0).1, rdS (runC V c t h0 h1 xs0).2.1)

end Point

/-- The two after the body at linear point `n`: the point's case, over what the point before left in the accumulator. -/
def outsAt0 (c : Dev nD) : (n : ℕ) → n < cfg0.N → Vec F S1x128x4096 .f32 × Vec F S128x4096 .f32
  | 0, hn => outA V c ⟨0, hn⟩ (Nat.zero_mod _) (by dsimp only; omega)
  | n + 1, hn =>
    if h0 : (n + 1) % 125 = 0 then outA V c ⟨n + 1, hn⟩ h0 (by dsimp only; omega)
    else if h1 : (n + 1) % 125 = 124 then outC V c ⟨n + 1, hn⟩ h0 h1 (outsAt0 c n (Nat.lt_of_succ_lt hn)).2
    else outB V c ⟨n + 1, hn⟩ h0 h1 (outsAt0 c n (Nat.lt_of_succ_lt hn)).2

theorem outsAt0_A (c : Dev nD) (t : Fin cfg0.N) (h0 : t.val % 125 = 0) (h1 : ¬t.val % 125 = 124) :
    outsAt0 V c t.val t.isLt = outA V c t h0 h1 := by
  obtain ⟨_ | n, hn⟩ := t
  · rfl
  · exact (dif_pos h0).trans rfl

theorem outsAt0_B (c : Dev nD) (t : Fin cfg0.N) (h0 : ¬t.val % 125 = 0) (h1 : ¬t.val % 125 = 124) :
    outsAt0 V c t.val t.isLt = outB V c t h0 h1 (outsAt0 V c (t.val - 1) (Nat.lt_of_le_of_lt (Nat.sub_le _ _) t.isLt)).2 := by
  obtain ⟨_ | n, hn⟩ := t
  · exact absurd (Nat.zero_mod _) h0
  · exact (dif_neg h0).trans ((dif_neg h1).trans rfl)

theorem outsAt0_C (c : Dev nD) (t : Fin cfg0.N) (h0 : ¬t.val % 125 = 0) (h1 : t.val % 125 = 124) :
    outsAt0 V c t.val t.isLt = outC V c t h0 h1 (outsAt0 V c (t.val - 1) (Nat.lt_of_le_of_lt (Nat.sub_le _ _) t.isLt)).2 := by
  obtain ⟨_ | n, hn⟩ := t
  · exact absurd (Nat.zero_mod _) h0
  · exact (dif_neg h0).trans ((dif_pos h1).trans rfl)

/-- The invariant before linear point `n`: the accumulator holds what the point before left in it (anything, before the first point). -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS c) ∗ (∃ r, prngReg c r))

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS c) ∗ (∃ r, prngReg c r)) := by
  cases n with
  | zero => exact absurd rfl hz
  | succ n => rfl

/-- At every point the invariant gives the one before the first point: the accumulator's contents are forgotten. -/
theorem PhiS_weaken (c : Dev nD) : ∀ (n : ℕ) (h : n ≤ cfg0.N), PhiS V c n h ⊢ Pipeline.ΦA spec0 c
  | 0, _ => .rfl
  | n + 1, h => by
    rw [PhiA0_eq]; unfold PhiS
    iintro ⟨⟨HS0, HR⟩, Hg⟩
    iframe HR Hg
    iexists _; iexact HS0

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q _ := fullShare
  owed _ := 0

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

theorem leaves0_0 (c : Dev nD) (t : Fin cfg0.N) : (dat0 V c).leavesExact 0 t = owns (c : Thread nD τ) (ms0_0 t) fullShare (iblk0 V c 0 t) := by
  unfold Dat.leavesExact; rw [liveAt0 0 t (.inl (by decide))]; rfl
theorem leaves0_1 (c : Dev nD) (t : Fin cfg0.N) : (dat0 V c).leavesExact 1 t = owns (c : Thread nD τ) (ms0_1 t) fullShare (iblk0 V c 1 t) := by
  unfold Dat.leavesExact; rw [liveAt0 1 t (.inl (by decide))]; rfl
theorem leaves0_2 (c : Dev nD) (t : Fin cfg0.N) : (dat0 V c).leavesExact 2 t = owns (c : Thread nD τ) (ms0_2 t) fullShare (iblk0 V c 2 t) := by
  unfold Dat.leavesExact; rw [liveAt0 2 t (.inl (by decide))]; rfl
theorem leaves0_3 (c : Dev nD) (t : Fin cfg0.N) : (dat0 V c).leavesExact 3 t = owns (c : Thread nD τ) (ms0_3 t) fullShare (iblk0 V c 3 t) := by
  unfold Dat.leavesExact; rw [liveAt0 3 t (.inl (by decide))]; rfl
theorem leaves0_4 (c : Dev nD) (t : Fin cfg0.N) : (dat0 V c).leavesExact 4 t = owns (c : Thread nD τ) (ms0_4 t) fullShare (iblk0 V c 4 t) := by
  unfold Dat.leavesExact; rw [liveAt0 4 t (.inl (by decide))]; rfl
theorem leaves0_5 (c : Dev nD) (t : Fin cfg0.N) : (dat0 V c).leavesExact 5 t = owns (c : Thread nD τ) (ms0_5 t) fullShare (iblk0 V c 5 t) := by
  unfold Dat.leavesExact; rw [liveAt0 5 t (.inl (by decide))]; rfl
theorem leaves0_6 (c : Dev nD) (t : Fin cfg0.N) (h1 : t.val % 125 = 124) :
    (dat0 V c).leavesExact 6 t = owns (c : Thread nD τ) (ms0_6 t) fullShare (outsAt0 V c t.val t.isLt).1 := by
  unfold Dat.leavesExact; rw [liveAt0 6 t (.inr h1)]; rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    show (dat0 V c).Φ t.succ = iprop(iprop(owns (c : Thread nD τ) scM0_0 fullShare ((outsAt0 V c t.val t.isLt).2) ∗ restS c) ∗ (∃ r, prngReg c r)) from rfl,
    show (dat0 V c).Φ t.castSucc = PhiS V c t.val (Nat.le_of_lt t.isLt) from by dsimp only [dat0]; simp only [Fin.coe_castSucc],
    leaves0_0, leaves0_1, leaves0_2, leaves0_3, leaves0_4, leaves0_5]
  have hN : t.val < 250 := lt_of_lt_of_eq t.isLt (show cfg0.N = 250 from N_0)
  by_cases h1 : t.val % 125 = 124
  · have h0 : ¬t.val % 125 = 0 := by omega
    rw [leaves0_6 V c t h1, PhiS_pos V c _ _ (by omega), outsAt0_C V c t h0 h1]
    unfold outC; dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runC V c t h0 h1 _).2.2 Set.univ _)
    iframe H0 H1 H2 H3 H4 H5 HS0
    isplitl [H6]; · iexists _; iexact H6
    iintro ⟨H0, H1, H2, H3, H4, H5, ⟨%e6, H6⟩, ⟨%es0, HS0⟩⟩
    iframe HR Hg Ho H0 H1 H2 H3 H4 H5
    isplitl [HS0]
    · ihave H' := (Ring.owns_of_writes_tiledL VS0_0 S128x1024.size) $$ HS0; iapply H'; ipureintro; sl_kernel_rfl
    ihave H' := (Ring.owns_of_writes_tiledL VO0_6 S1x128x4096.size) $$ H6; iapply H'; ipureintro; sl_kernel_rfl
  · rw [Dat.leavesExact_idle (dat0 V c) 6 t (idleAt0_6 t h1).1 (idleAt0_6 t h1).2]
    by_cases h0 : t.val % 125 = 0
    · rw [outsAt0_A V c t h0 h1]
      unfold outA; dsimp only
      refine (sep_mono (PhiS_weaken V c _ _) .rfl).trans ?_
      rw [PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0 h1).2.2 _ Set.univ _)
      iframe H0 H1 H2 H3 H4 H5 H6 HS0
      iintro ⟨H0, H1, H2, H3, H4, H5, H6, ⟨%es0, HS0⟩⟩
      iframe HR Hg Ho H0 H1 H2 H3 H4 H5
      isplitl [HS0]
      · ihave H' := (Ring.owns_of_writes_tiledL VS0_0 S128x1024.size) $$ HS0; iapply H'; ipureintro; sl_kernel_rfl
      iexists _; iexact H6
    · rw [PhiS_pos V c _ _ (by omega), outsAt0_B V c t h0 h1]
      unfold outB; dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t h0 h1 _).2.2 _ Set.univ _)
      iframe H0 H1 H2 H3 H4 H5 H6 HS0
      iintro ⟨H0, H1, H2, H3, H4, H5, H6, ⟨%es0, HS0⟩⟩
      iframe HR Hg Ho H0 H1 H2 H3 H4 H5
      isplitl [HS0]
      · ihave H' := (Ring.owns_of_writes_tiledL VS0_0 S128x1024.size) $$ HS0; iapply H'; ipureintro; sl_kernel_rfl
      iexists _; iexact H6

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Frame.lean ====
import proofs.«412652_j15187004358828_3_alg».proof.Proof.KI.R0Base

/-! Region 1 (the kernel that adds the two halves' sums, transposes, and applies the graph network; one grid point): its body run once, which finds the pieces its one store leaves in the output block, and the body at the point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`: the part of its array the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1_5 : View sig .tc .vmem S4096x16 .f32 := (Memref.whole cc1_stg5_0 : Memref sig .tc .vmem S4096x16 .f32).view
abbrev ms1_0 (t : Fin cfg1.N) : Memref sig .tc .vmem S2x128x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x16 .f32 := win1_5.stage (cfg1.slots t 5)
abbrev hs1_5 (t : Fin cfg1.N) : (ms1_5 t).IsWhole := hstage1_5 ((cfg1.slots t 5).cast nbuf1_5)

section
variable (c : Dev nD) (i : grid1.Coords) (arg1 : Memref sig .tc .vmem S2x128x4096 .f32) (harg1 : arg1.IsWhole) (arg2 : Memref sig .tc .vmem S128x32 .f32) (harg2 : arg2.IsWhole) (arg3 : Memref sig .tc .vmem S32 .f32) (harg3 : arg3.IsWhole) (arg4 : Memref sig .tc .vmem S32x16 .f32) (harg4 : arg4.IsWhole) (arg5 : Memref sig .tc .vmem S16 .f32) (harg5 : arg5.IsWhole) (arg6 : Memref sig .tc .vmem S4096x16 .f32) (harg6 : arg6.IsWhole) (x0 : Vec F S2x128x4096 .f32) (x1 : Vec F S128x32 .f32) (x2 : Vec F S32 .f32) (x3 : Vec F S32x16 .f32) (x4 : Vec F S16 .f32)

set_option maxHeartbeats 4000000 in

noncomputable def kernelRun1_A :
    { L5 : List (View.Piece (Elt F) S4096x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__combine_mlp2_kernel i arg1 harg1 arg2 harg2 arg3 harg3 arg4 harg4 arg5 harg5 arg6 harg6) K } := by
  refine ⟨?_, fun E K => ?run⟩
  case run =>
    simp only [cc1__combine_mlp2_kernel_eq_skeleton]; unfold cc1__combine_mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]; · iapply owns_unread c harg1; iexact H0
    isplitl [H1]; · iapply owns_unread c harg2; iexact H1
    isplitl [H2]; · iapply owns_unread c harg3; iexact H2
    isplitl [H3]; · iapply owns_unread c harg4; iexact H3
    isplitl [H4]; · iapply owns_unread c harg5; iexact H4
    iexists _; iexact H5

/-- What the run leaves in the output block: its pieces read back. -/
def out1_A_5 : Vec F S4096x16 .f32 :=
  VO1_5.read (Elt F) (VO1_5.writes (Elt F) VO1_5.junk (kernelRun1_A c i arg1 harg1 arg2 harg2 arg3 harg3 arg4 harg4 arg5 harg5 arg6 harg6 x0 x1 x2 x3 x4).1)
end

def outsAt1 (c : Dev nD) (t : Fin cfg1.N) : Vec F S4096x16 .f32 :=
  out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1 V c t
  Φ _ := Pipeline.ΦA spec1 c
  q _ := fullShare
  owed _ := 0

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl, show (dat1 V c).owesAt () t.succ = (dat1 V c).owesAt () t.castSucc from rfl,
    show (dat1 V c).after 0 t = iblk1 V c 0 t from by dsimp only [dat1], show (dat1 V c).after 1 t = iblk1 V c 1 t from by dsimp only [dat1], show (dat1 V c).after 2 t = iblk1 V c 2 t from by dsimp only [dat1], show (dat1 V c).after 3 t = iblk1 V c 3 t from by dsimp only [dat1], show (dat1 V c).after 4 t = iblk1 V c 4 t from by dsimp only [dat1],
    show (dat1 V c).after 5 t = outsAt1 V c t from by dsimp only [dat1]]
  unfold outsAt1 out1_A_5
  iintro ⟨HΦ, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ (iblk1 V c 0 t) (iblk1 V c 1 t) (iblk1 V c 2 t) (iblk1 V c 3 t) (iblk1 V c 4 t)).2 Set.univ _)
  iframe H0 H1 H2 H3 H4
  isplitl [H5]; · iexists _; iexact H5
  iintro ⟨H0, H1, H2, H3, H4, ⟨%e5, H5⟩⟩
  iframe HΦ Ho H0 H1 H2 H3 H4
  ihave H' := (Ring.owns_of_writes_tiledL VO1_5 S4096x16.size) $$ H5; iapply H'; ipureintro; sl_kernel_rfl

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
import proofs.«412652_j15187004358828_3_alg».proof.Proof.KI.R0Frame
import proofs.«412652_j15187004358828_3_alg».proof.Proof.KI.R1Frame
import proofs.«412652_j15187004358828_3_alg».proof.Proof.Gen.KernelIdeal.Regions

/-! The whole program: the index array reshaped to a column, region 0, region 1. After each region its arrays hold what the region leaves and every other buffer is as entered; every weakly fair execution terminates without a fault; no item changes an argument array, and the result buffer ends at region 1's result array. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev U1 : (c : Dev nD) → (b : Ref sig .tc) → Buf (Elt F) ((c : Thread nD τ).loc b) := fun c b => V1 m c b
def W2 (c : Dev nD) : Valuation τ sig (Elt F) := Pipeline.withArrays spec0 c (V1 m c) fun w => (dat0 (U1 m) c).arrAt w cfg0.N
abbrev U2 : (c : Dev nD) → (b : Ref sig .tc) → Buf (Elt F) ((c : Thread nD τ).loc b) := fun c b => W2 m c b
def W3 (c : Dev nD) : Valuation τ sig (Elt F) := Pipeline.withArrays spec1 c (W2 m c) fun w => (dat1 (U2 m) c).arrAt w cfg1.N
abbrev U3 : (c : Dev nD) → (b : Ref sig .tc) → Buf (Elt F) ((c : Thread nD τ).loc b) := fun c b => W3 m c b

theorem W2_arr (c : Dev nD) (w : Fin cfg0.W) : W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) : W2 m c (Proc.devRef .tc b) = V1 m c (Proc.devRef .tc b) := by
  unfold W2; exact Pipeline.withArrays_of_ne spec0 c _ _ b hb
theorem W3_arr (c : Dev nD) (w : Fin cfg1.W) : W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) : W3 m c (Proc.devRef .tc b) = W2 m c (Proc.devRef .tc b) := by
  unfold W3; exact Pipeline.withArrays_of_ne spec1 c _ _ b hb

/-- A region leaves an input window's array as it found it. -/
theorem W2_in (c : Dev nD) (w : Fin cfg0.W) (hw : (cfg0.win w).isOut = false) :
    W2 m c (Proc.devRef .tc (Pipeline.arrRef spec0 w)) = V1 m c (Proc.devRef .tc (Pipeline.arrRef spec0 w)) :=
  (W2_arr m c w).trans ((dat0 (U1 m) c).arrAt_in w hw _)
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans ((dat1 (U2 m) c).arrAt_in w hw _)

def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W3 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 0 c).Φ 0 = Pipeline.ΦA spec0 c from rfl]; unfold Pipeline.ΦA
    iintro ⟨Hp, -, Hr⟩
    iframe Hr Hp
  hout c := by
    rw [Pipeline.ownSems0_none]
    refine (show (dat0 (U1 m) c).Φ (Fin.last cfg0.N) ⊢ Pipeline.ΦA spec0 c from PhiS_weaken (U1 m) c (Fin.last cfg0.N).val (Nat.le_of_lt_succ (Fin.last cfg0.N).isLt)).trans ?_
    unfold Pipeline.ΦA
    iintro ⟨Hr, Hp⟩
    iframe Hp Hr
    iempintro
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 1 c).Φ 0 = Pipeline.ΦA spec1 c from rfl]; unfold Pipeline.ΦA
    iintro ⟨Hp, -, Hr⟩
    iframe Hr Hp
  hout c := by
    rw [Pipeline.ownSems0_none]
    rw [show (pdats m 1 c).Φ (Fin.last _) = Pipeline.ΦA spec1 c from rfl]; unfold Pipeline.ΦA
    iintro ⟨Hr, Hp⟩
    iframe Hp Hr
    iempintro
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (fun w => (W3_arr m c w).symm)
      (fun b hb => W3_of_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [.host (seg0 m 𝒱₀ L lv fun _ => R), .region (reg0 m), .region (reg1 m)]

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [(main_chain c).trans (by chain_rfl : _ = Pipeline.Seg.run (segs m))])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the buffers named: the result buffer ends at region 1's result array, and every argument array as launched
    (the reshape writes only its own result; a region changes only its output window's array). -/
theorem run_result (ρ : Dev nD → PrngReg) : θ_run defs (onTc (τ := τ) (main (F := F))) ⟨m, fun _ => 0, ρ⟩ (fun r => ∀ c : Dev nD,
      r.2.mem ((c.tc : Thread nD τ).loc main_v2) = (dat1 (U2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v2 (by decide))).trans (W3_arr m c 5),
     (h c _ (mem_uc main_arg0 (by decide))).trans ((W3_of_ne m c main_arg0 (by decide)).trans ((W2_in m c 0 rfl).trans (V1_of m c main_arg0 (by decide)))),
     (h c _ (mem_uc main_arg1 (by decide))).trans ((W3_of_ne m c main_arg1 (by decide)).trans ((W2_of_ne m c main_arg1 (by decide)).trans (V1_of m c main_arg1 (by decide)))),
     (h c _ (mem_uc main_arg2 (by decide))).trans ((W3_of_ne m c main_arg2 (by decide)).trans ((W2_in m c 2 rfl).trans (V1_of m c main_arg2 (by decide)))),
     (h c _ (mem_uc main_arg3 (by decide))).trans ((W3_of_ne m c main_arg3 (by decide)).trans ((W2_in m c 3 rfl).trans (V1_of m c main_arg3 (by decide)))),
     (h c _ (mem_uc main_arg4 (by decide))).trans ((W3_of_ne m c main_arg4 (by decide)).trans ((W2_in m c 4 rfl).trans (V1_of m c main_arg4 (by decide)))),
     (h c _ (mem_uc main_arg5 (by decide))).trans ((W3_of_ne m c main_arg5 (by decide)).trans ((W2_in m c 5 rfl).trans (V1_of m c main_arg5 (by decide)))),
     (h c _ (mem_uc main_arg6 (by decide))).trans ((W3_in m c 1 rfl).trans ((W2_of_ne m c main_arg6 (by decide)).trans (V1_of m c main_arg6 (by decide)))),
     (h c _ (mem_uc main_arg7 (by decide))).trans ((W3_in m c 2 rfl).trans ((W2_of_ne m c main_arg7 (by decide)).trans (V1_of m c main_arg7 (by decide)))),
     (h c _ (mem_uc main_arg8 (by decide))).trans ((W3_in m c 3 rfl).trans ((W2_of_ne m c main_arg8 (by decide)).trans (V1_of m c main_arg8 (by decide)))),
     (h c _ (mem_uc main_arg9 (by decide))).trans ((W3_in m c 4 rfl).trans ((W2_of_ne m c main_arg9 (by decide)).trans (V1_of m c main_arg9 (by decide))))⟩) (run_all m ρ)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_result m ρ)

end Cert.KernelIdeal.Hand

end
-- ==== Proof.LibMatmul.lean ====
import Idealize.ShloMosaic.Lib.ValueIdx
import Idealize.ShloMosaic.PureOps.Ideal.Laws

noncomputable section

/-!
  A matrix product with one contracted axis, read at an index of the result: general facts, for any shapes and any
  dimension numbers. `lhsIdx_val_of_non` / `rhsIdx_val_of_non`: on an axis that is not contracted (and not a batch axis)
  an operand's index is the result index's coordinate at that axis's place among the result's axes.
  `matmul_zero_apply`: the product into the zero accumulator at `j` is the sum, over the contracted axis's `n`
  coordinates, of the products of the operands' entries, each operand read where the coordinate puts it.
-/

namespace Cert.LibMatmul

open Idealize.ShloMosaic Idealize.ShloMosaic.ValueIdx

variable {sl sr so : Shape} (d : DotDims sl sr so)

theorem lhsIdx_val_of_non {a : Fin sl.rank} (hb : a ∉ d.lhsBatch) (hn : a ∈ d.lhsNonContracting) (p : Fin so.rank)
    (hp : d.lhsBatch.length + d.lhsNonContracting.idxOf a = p.val) (j : so.Idx) (k : d.contr.Idx) :
    (d.lhsIdx j k a).val = (j p).val := by
  unfold DotDims.lhsIdx
  rw [dif_neg hb, dif_pos hn]
  simp only [Fin.val_cast]
  have key : ∀ q : Fin so.rank, q.val = p.val → (j q).val = (j p).val := fun q h => by rw [Fin.ext h]
  exact key _ hp

theorem rhsIdx_val_of_non {a : Fin sr.rank} (hb : a ∉ d.rhsBatch) (hn : a ∈ d.rhsNonContracting) (p : Fin so.rank)
    (hp : d.lhsBatch.length + d.lhsNonContracting.length + d.rhsNonContracting.idxOf a = p.val) (j : so.Idx) (k : d.contr.Idx) :
    (d.rhsIdx j k a).val = (j p).val := by
  unfold DotDims.rhsIdx
  rw [dif_neg hb, dif_pos hn]
  simp only [Fin.val_cast]
  have key : ∀ q : Fin so.rank, q.val = p.val → (j q).val = (j p).val := fun q h => by rw [Fin.ext h]
  exact key _ hp

theorem matmul_zero_apply {φ₁ φ₂ : FTy} (n : Nat) (hr : d.contr.rank = 1) (hs : d.contr.size ⟨0, by omega⟩ = n)
    (prec : Option ContractPrecision) (a : FVec Ideal sl φ₁) (b : FVec Ideal sr φ₂) (j : so.Idx) (la : Fin n → sl.Idx) (lb : Fin n → sr.Idx)
    (hl : ∀ q, d.lhsIdx j q = la (contrEquiv1 d n hr hs q)) (hb : ∀ q, d.rhsIdx j q = lb (contrEquiv1 d n hr hs q)) :
    matmul d prec a b (constant (F := Ideal) so .f32 0x00000000#32) j = ∑ k : Fin n, a (la k) * b (lb k) := by
  simp only [matmul]
  rw [Ideal.matmul_constant_zero_apply]
  exact (Finset.sum_congr rfl fun q _ => by rw [hl, hb]).trans (Equiv.sum_comp (contrEquiv1 d n hr hs) fun k => a (la k) * b (lb k))

end Cert.LibMatmul

end
-- ==== Proof.Spec.lean ====
import Idealize.ShloMosaic.PureOps.Ideal
import Idealize.ShloMosaic.Lib.ValueIdx

/-! What both programs compute, as functions of the argument arrays over the extended reals. -/

noncomputable section

namespace Cert.Spec

open Idealize.ShloMosaic Idealize.ShloMosaic.ValueIdx

/-- A node's hidden layer: the features times the first weights, plus the bias, cut off below at zero. -/
def hid (x : Fin 128 → EReal) (W1 : Fin 128 → Fin 64 → EReal) (b1 : Fin 64 → EReal) (j : Fin 64) : EReal :=
  max ((∑ k : Fin 128, x k * W1 k j) + b1 j) 0

/-- A node's 256 outputs: the hidden layer times the second weights, plus the bias. -/
def pre2 (x : Fin 128 → EReal) (W1 : Fin 128 → Fin 64 → EReal) (b1 : Fin 64 → EReal) (W2 : Fin 64 → Fin 256 → EReal)
    (b2 : Fin 256 → EReal) (q : Fin 256) : EReal :=
  (∑ j : Fin 64, hid x W1 b1 j * W2 j q) + b2 q

/-- A node's gated feature `f`: output `f + 128` times the logistic of output `f`. -/
def gated (x : Fin 128 → EReal) (W1 : Fin 128 → Fin 64 → EReal) (b1 : Fin 64 → EReal) (W2 : Fin 64 → Fin 256 → EReal)
    (b2 : Fin 256 → EReal) (f : Fin 128) : EReal :=
  pre2 x W1 b1 W2 b2 ⟨f.val + 128, by omega⟩ * Ideal.logistic (pre2 x W1 b1 W2 b2 ⟨f.val, by omega⟩)

/-- Per graph: the sum of `v` over the nodes whose index word is the graph's. -/
def segsum (idx : Fin 1000000 → BitVec 32) (v : Fin 1000000 → Fin 128 → EReal) (g : Fin 4096) (f : Fin 128) : EReal :=
  ∑ n : Fin 1000000, if idx n = BitVec.ofNat 32 g.val then v n f else 0

def IsReal (a : EReal) : Prop := ∃ r : ℝ, a = (r : EReal)

/-- The same sum over block `p`'s 4000 nodes, and over the 125 blocks of half `h`. -/
def blockSum (idx : Fin 1000000 → BitVec 32) (v : Fin 1000000 → Fin 128 → EReal) (p : Fin 250) (g : Fin 4096) (f : Fin 128) : EReal :=
  ∑ r : Fin 4000, if idx ⟨p.val * 4000 + r.val, by omega⟩ = BitVec.ofNat 32 g.val then v ⟨p.val * 4000 + r.val, by omega⟩ f else 0

def halfSum (idx : Fin 1000000 → BitVec 32) (v : Fin 1000000 → Fin 128 → EReal) (h : Fin 2) (g : Fin 4096) (f : Fin 128) : EReal :=
  ∑ t : Fin 125, blockSum idx v ⟨h.val * 125 + t.val, by omega⟩ g f

/-- A graph's output `o`: the graph network (two layers, the first cut off below at zero) on the graph's 128 sums. -/
def head (s : Fin 128 → EReal) (W3 : Fin 128 → Fin 32 → EReal) (b3 : Fin 32 → EReal) (W4 : Fin 32 → Fin 16 → EReal)
    (b4 : Fin 16 → EReal) (o : Fin 16) : EReal :=
  (∑ j : Fin 32, max ((∑ f : Fin 128, s f * W3 f j) + b3 j) 0 * W4 j o) + b4 o

abbrev SX : Shape := ⟨2, ![1000000, 128]⟩
abbrev SI : Shape := ⟨1, ![1000000]⟩
abbrev SW1 : Shape := ⟨2, ![128, 64]⟩
abbrev SB1 : Shape := ⟨1, ![64]⟩
abbrev SW2 : Shape := ⟨2, ![64, 256]⟩
abbrev SB2 : Shape := ⟨1, ![256]⟩
abbrev SW3 : Shape := ⟨2, ![128, 32]⟩
abbrev SB3 : Shape := ⟨1, ![32]⟩
abbrev SW4 : Shape := ⟨2, ![32, 16]⟩
abbrev SB4 : Shape := ⟨1, ![16]⟩
abbrev SOut : Shape := ⟨2, ![4096, 16]⟩

/-- A block's share of graph `g`'s sum of gated feature `f`, from the block's rows and index words. -/
def blockTerm (xb : (⟨2, ![4000, 128]⟩ : Shape).Idx → EReal) (ib : (⟨2, ![4000, 1]⟩ : Shape).Idx → BitVec 32) (W1 : SW1.Idx → EReal)
    (b1 : SB1.Idx → EReal) (W2 : SW2.Idx → EReal) (b2 : SB2.Idx → EReal) (g : Fin 4096) (f : Fin 128) : EReal :=
  ∑ r : Fin 4000, if ib (ix2 r 0) = BitVec.ofNat 32 g.val
    then gated (fun k => xb (ix2 r k)) (fun k j => W1 (ix2 k j)) (fun j => b1 (ix1 j)) (fun j q => W2 (ix2 j q)) (fun q => b2 (ix1 q)) f else 0

def gatedOf (x : SX.Idx → EReal) (W1 : SW1.Idx → EReal) (b1 : SB1.Idx → EReal) (W2 : SW2.Idx → EReal) (b2 : SB2.Idx → EReal)
    (n : Fin 1000000) (f : Fin 128) : EReal :=
  gated (fun k => x (ix2 n k)) (fun k j => W1 (ix2 k j)) (fun j => b1 (ix1 j)) (fun j q => W2 (ix2 j q)) (fun q => b2 (ix1 q)) f

def graphOf (x : SX.Idx → EReal) (idx : SI.Idx → BitVec 32) (W1 : SW1.Idx → EReal) (b1 : SB1.Idx → EReal) (W2 : SW2.Idx → EReal)
    (b2 : SB2.Idx → EReal) (g : Fin 4096) (f : Fin 128) : EReal :=
  segsum (fun n => idx (ix1 n)) (gatedOf x W1 b1 W2 b2) g f

def outAt (x : SX.Idx → EReal) (idx : SI.Idx → BitVec 32) (W1 : SW1.Idx → EReal) (b1 : SB1.Idx → EReal) (W2 : SW2.Idx → EReal)
    (b2 : SB2.Idx → EReal) (W3 : SW3.Idx → EReal) (b3 : SB3.Idx → EReal) (W4 : SW4.Idx → EReal) (b4 : SB4.Idx → EReal)
    (g : Fin 4096) (o : Fin 16) : EReal :=
  head (graphOf x idx W1 b1 W2 b2 g) (fun f j => W3 (ix2 f j)) (fun j => b3 (ix1 j)) (fun j o => W4 (ix2 j o)) (fun o => b4 (ix1 o)) o

/-- THE SPECIFICATION: entry (g, o) is graph `g`'s output `o`. -/
def G (x : SX.Idx → EReal) (idx : SI.Idx → BitVec 32) (W1 : SW1.Idx → EReal) (b1 : SB1.Idx → EReal) (W2 : SW2.Idx → EReal)
    (b2 : SB2.Idx → EReal) (W3 : SW3.Idx → EReal) (b3 : SB3.Idx → EReal) (W4 : SW4.Idx → EReal) (b4 : SB4.Idx → EReal) :
    SOut.Idx → EReal :=
  fun i => outAt x idx W1 b1 W2 b2 W3 b3 W4 b4 (i 0) (i 1)

theorem G_ix2 (x : SX.Idx → EReal) (idx : SI.Idx → BitVec 32) (W1 : SW1.Idx → EReal) (b1 : SB1.Idx → EReal) (W2 : SW2.Idx → EReal)
    (b2 : SB2.Idx → EReal) (W3 : SW3.Idx → EReal) (b3 : SB3.Idx → EReal) (W4 : SW4.Idx → EReal) (b4 : SB4.Idx → EReal)
    (g : Fin 4096) (o : Fin 16) :
    G x idx W1 b1 W2 b2 W3 b3 W4 b4 (ix2 g o) = outAt x idx W1 b1 W2 b2 W3 b3 W4 b4 g o := rfl

/-- The zero offsets, as constant functions. -/
theorem hz1 : (![0] : Fin 1 → ℕ) = fun _ => 0 := funext fun a => by fin_cases a <;> rfl
theorem hz2 : (![0, 0] : Fin 2 → ℕ) = fun _ => 0 := funext fun a => by fin_cases a <;> rfl
theorem hz3 : (![0, 0, 0] : Fin 3 → ℕ) = fun _ => 0 := funext fun a => by fin_cases a <;> rfl

end Cert.Spec

end
-- ==== Proof.Algebra.lean ====
import proofs.«412652_j15187004358828_3_alg».proof.Proof.Spec
import Mathlib.Data.EReal.Basic
import Mathlib.Data.EReal.Operations
import Mathlib.Algebra.BigOperators.Fin
import Mathlib.Algebra.BigOperators.Group.Finset.Basic
import Mathlib.Logic.Equiv.Fin.Basic

/-! Real-valuedness passes through the node network, and a sum over all nodes is the sum of its blocks' sums. -/

noncomputable section

namespace Cert.Spec

open Idealize.ShloMosaic

theorem isReal_zero : IsReal (0 : EReal) := ⟨0, rfl⟩

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_mul {a b : EReal} (ha : IsReal a) (hb : IsReal b) : IsReal (a * b) := by
  obtain ⟨r, rfl⟩ := ha
  obtain ⟨s, rfl⟩ := hb
  exact ⟨r * s, (EReal.coe_mul r s).symm⟩

theorem isReal_max {a b : EReal} (ha : IsReal a) (hb : IsReal b) : IsReal (max a b) := by
  rcases le_total a b with h | h
  · rw [max_eq_right h]; exact hb
  · rw [max_eq_left h]; exact ha

theorem isReal_sum {ι : Type*} (s : Finset ι) (φ : ι → EReal) (h : ∀ i ∈ s, IsReal (φ i)) :
    IsReal (∑ i ∈ s, φ i) :=
  Finset.sum_induction φ IsReal (fun _ _ ha hb => isReal_add ha hb) isReal_zero h

theorem isReal_logistic {a : EReal} (ha : IsReal a) : IsReal (Ideal.logistic a) := by
  obtain ⟨r, rfl⟩ := ha
  exact ⟨_, Ideal.logistic_coe r⟩

theorem sub_self_of_isReal {a : EReal} (h : IsReal a) : a - a = 0 := by
  obtain ⟨r, rfl⟩ := h
  rw [← EReal.coe_sub, sub_self, EReal.coe_zero]

theorem hid_isReal (x : Fin 128 → EReal) (W1 : Fin 128 → Fin 64 → EReal) (b1 : Fin 64 → EReal)
    (hx : ∀ k, IsReal (x k)) (hW1 : ∀ k j, IsReal (W1 k j)) (hb1 : ∀ j, IsReal (b1 j)) (j : Fin 64) :
    IsReal (hid x W1 b1 j) := by
  unfold hid
  exact isReal_max (isReal_add (isReal_sum _ _ fun k _ => isReal_mul (hx k) (hW1 k j)) (hb1 j)) isReal_zero

theorem pre2_isReal (x : Fin 128 → EReal) (W1 : Fin 128 → Fin 64 → EReal) (b1 : Fin 64 → EReal) (W2 : Fin 64 → Fin 256 → EReal)
    (b2 : Fin 256 → EReal) (hx : ∀ k, IsReal (x k)) (hW1 : ∀ k j, IsReal (W1 k j)) (hb1 : ∀ j, IsReal (b1 j))
    (hW2 : ∀ j q, IsReal (W2 j q)) (hb2 : ∀ q, IsReal (b2 q)) (q : Fin 256) : IsReal (pre2 x W1 b1 W2 b2 q) := by
  unfold pre2
  exact isReal_add (isReal_sum _ _ fun j _ => isReal_mul (hid_isReal x W1 b1 hx hW1 hb1 j) (hW2 j q)) (hb2 q)

theorem gated_isReal (x : Fin 128 → EReal) (W1 : Fin 128 → Fin 64 → EReal) (b1 : Fin 64 → EReal) (W2 : Fin 64 → Fin 256 → EReal)
    (b2 : Fin 256 → EReal) (hx : ∀ k, IsReal (x k)) (hW1 : ∀ k j, IsReal (W1 k j)) (hb1 : ∀ j, IsReal (b1 j))
    (hW2 : ∀ j q, IsReal (W2 j q)) (hb2 : ∀ q, IsReal (b2 q)) (f : Fin 128) : IsReal (gated x W1 b1 W2 b2 f) := by
  unfold gated
  exact isReal_mul (pre2_isReal x W1 b1 W2 b2 hx hW1 hb1 hW2 hb2 _)
    (isReal_logistic (pre2_isReal x W1 b1 W2 b2 hx hW1 hb1 hW2 hb2 _))

theorem block_lt {a b : ℕ} (p : Fin a) (r : Fin b) : p.val * b + r.val < a * b :=
  calc p.val * b + r.val < p.val * b + b := Nat.add_lt_add_left r.isLt _
    _ = (p.val + 1) * b := (Nat.succ_mul _ _).symm
    _ ≤ a * b := Nat.mul_le_mul_right _ p.isLt

theorem sum_fin_mul {M : Type*} [AddCommMonoid M] (a b : ℕ) (φ : Fin (a * b) → M) :
    ∑ n : Fin (a * b), φ n = ∑ p : Fin a, ∑ r : Fin b, φ ⟨p.val * b + r.val, block_lt p r⟩ := by
  rw [← finProdFinEquiv.sum_comp, Fintype.sum_prod_type]
  refine Finset.sum_congr rfl fun p _ => Finset.sum_congr rfl fun r _ => ?_
  congr 1
  apply Fin.ext
  show r.val + b * p.val = p.val * b + r.val
  rw [Nat.mul_comm, Nat.add_comm]

theorem sum_fin_of_eq_mul {M : Type*} [AddCommMonoid M] {N a b : ℕ} (h : N = a * b) (φ : Fin N → M) :
    ∑ n : Fin N, φ n = ∑ p : Fin a, ∑ r : Fin b, φ ⟨p.val * b + r.val, h ▸ block_lt p r⟩ := by
  subst h
  exact sum_fin_mul a b φ

theorem segsum_eq_halves (idx : Fin 1000000 → BitVec 32) (v : Fin 1000000 → Fin 128 → EReal) (g : Fin 4096) (f : Fin 128) :
    segsum idx v g f = halfSum idx v 0 g f + halfSum idx v 1 g f := by
  unfold segsum halfSum blockSum
  rw [sum_fin_of_eq_mul (show 1000000 = 250 * 4000 by norm_num),
    sum_fin_of_eq_mul (show 250 = 2 * 125 by norm_num), Fin.sum_univ_two]

end Cert.Spec

end
-- ==== Proof.KI.R0StepA.lean ====
import proofs.«412652_j15187004358828_3_alg».proof.Proof.Gen.KernelIdeal.Skeleton
import proofs.«412652_j15187004358828_3_alg».proof.Proof.LibMatmul
import proofs.«412652_j15187004358828_3_alg».proof.Proof.Algebra
import Idealize.ShloMosaic.Lib.ValueIdx
import Idealize.ShloMosaic.Lib.ValueLayout
import Idealize.ShloMosaic.Lib.Pipeline.Value
import Idealize.ShloMosaic.PureOps.Ideal.Laws

/-! Region 0 over the extended reals, the node network on a block of 4000 rows: the operand of the one-hot products holds the rows' gated features in its first 128 columns and, the inputs being real, zero in its last 128. -/

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.Spec

theorem mm_d1_apply (a : FVec Ideal S4000x128 .f32) (b : FVec Ideal S128x64 .f32) (prec : Option ContractPrecision) (r : Fin 4000) (j : Fin 64) :
    matmul dot_S4000x128_S128x64_S4000x64_1_0_0_1_n_n prec a b (constant S4000x64 .f32 0x00000000#32) (ix2 r j) = ∑ k : Fin 128, a (ix2 r k) * b (ix2 k j) :=
  Cert.LibMatmul.matmul_zero_apply dot_S4000x128_S128x64_S4000x64_1_0_0_1_n_n 128 rfl rfl _ _ _ _ (fun k => ix2 _ k) (fun k => ix2 k _)
    (fun q => funext fun x => Fin.ext (by
      match x with
      | ⟨0, _⟩ => exact Cert.LibMatmul.lhsIdx_val_of_non dot_S4000x128_S128x64_S4000x64_1_0_0_1_n_n (a := 0) (by decide) (by decide) 0 (by decide) _ _
      | ⟨1, _⟩ => exact dot_S4000x128_S128x64_S4000x64_1_0_0_1_n_n.lhsIdx_val_of_single rfl _ _))
    (fun q => funext fun x => Fin.ext (by
      match x with
      | ⟨0, _⟩ => exact dot_S4000x128_S128x64_S4000x64_1_0_0_1_n_n.rhsIdx_val_of_single rfl _ _
      | ⟨1, _⟩ => exact Cert.LibMatmul.rhsIdx_val_of_non dot_S4000x128_S128x64_S4000x64_1_0_0_1_n_n (a := 1) (by decide) (by decide) 1 (by decide) _ _))

theorem mm_d2_apply (a : FVec Ideal S4000x64 .f32) (b : FVec Ideal S64x256 .f32) (prec : Option ContractPrecision) (r : Fin 4000) (j : Fin 256) :
    matmul dot_S4000x64_S64x256_S4000x256_1_0_0_1_n_n prec a b (constant S4000x256 .f32 0x00000000#32) (ix2 r j) = ∑ k : Fin 64, a (ix2 r k) * b (ix2 k j) :=
  Cert.LibMatmul.matmul_zero_apply dot_S4000x64_S64x256_S4000x256_1_0_0_1_n_n 64 rfl rfl _ _ _ _ (fun k => ix2 _ k) (fun k => ix2 k _)
    (fun q => funext fun x => Fin.ext (by
      match x with
      | ⟨0, _⟩ => exact Cert.LibMatmul.lhsIdx_val_of_non dot_S4000x64_S64x256_S4000x256_1_0_0_1_n_n (a := 0) (by decide) (by decide) 0 (by decide) _ _
      | ⟨1, _⟩ => exact dot_S4000x64_S64x256_S4000x256_1_0_0_1_n_n.lhsIdx_val_of_single rfl _ _))
    (fun q => funext fun x => Fin.ext (by
      match x with
      | ⟨0, _⟩ => exact dot_S4000x64_S64x256_S4000x256_1_0_0_1_n_n.rhsIdx_val_of_single rfl _ _
      | ⟨1, _⟩ => exact Cert.LibMatmul.rhsIdx_val_of_non dot_S4000x64_S64x256_S4000x256_1_0_0_1_n_n (a := 1) (by decide) (by decide) 1 (by decide) _ _))

def hidBlk (v3 : FVec Ideal S4000x128 .f32) (v4 : FVec Ideal S128x64 .f32) (v6 : FVec Ideal S64 .f32) : FVec Ideal S4000x64 .f32 :=
  have cst : FVec Ideal S4000x64 .f32 := constant S4000x64 .f32 0x00000000#32
  have v5 : FVec Ideal S4000x64 .f32 := matmul dot_S4000x128_S128x64_S4000x64_1_0_0_1_n_n (some .fp32) v3 v4 cst
  have v7 : FVec Ideal S1x64 .f32 := shapeCast S1x64 v6 shapeCasts_S64_S1x64
  have v8 : FVec Ideal S4000x64 .f32 := broadcastTo S4000x64 v7 broadcasts_S1x64_S4000x64
  have v9 : FVec Ideal S4000x64 .f32 := addf v5 v8
  have cst_5 : Ideal .f32 := Scalar.ofBits .f32 0x00000000#32
  have v10 : FVec Ideal S4000x64 .f32 := broadcast S4000x64 cst_5
  have v11 : FVec Ideal S4000x64 .f32 := maximumf v9 v10
  v11

def pre2Blk (v3 : FVec Ideal S4000x128 .f32) (v4 : FVec Ideal S128x64 .f32) (v6 : FVec Ideal S64 .f32) (v12 : FVec Ideal S64x256 .f32) (v14 : FVec Ideal S256 .f32) : FVec Ideal S4000x256 .f32 :=
  have cst_8 : FVec Ideal S4000x256 .f32 := constant S4000x256 .f32 0x00000000#32
  have v13 : FVec Ideal S4000x256 .f32 := matmul dot_S4000x64_S64x256_S4000x256_1_0_0_1_n_n (some .fp32) (hidBlk v3 v4 v6) v12 cst_8
  have v15 : FVec Ideal S1x256 .f32 := shapeCast S1x256 v14 shapeCasts_S256_S1x256
  have v16 : FVec Ideal S4000x256 .f32 := broadcastTo S4000x256 v15 broadcasts_S1x256_S4000x256
  have v17 : FVec Ideal S4000x256 .f32 := addf v13 v16
  v17

def gatedBlk (v3 : FVec Ideal S4000x128 .f32) (v4 : FVec Ideal S128x64 .f32) (v6 : FVec Ideal S64 .f32) (v12 : FVec Ideal S64x256 .f32) (v14 : FVec Ideal S256 .f32) : FVec Ideal S4000x128 .f32 :=
  have v17 : FVec Ideal S4000x256 .f32 := pre2Blk v3 v4 v6 v12 v14
  have v18 : FVec Ideal S4000x128 .f32 := extractStridedSlice S4000x128 ![0, 0] v17 slices_S4000x256_o0_0_S4000x128
  have v19 : FVec Ideal S4000x128 .f32 := logistic v18
  have v20 : FVec Ideal S4000x128 .f32 := extractStridedSlice S4000x128 ![0, 128] v17 slices_S4000x256_o0_128_S4000x128
  have v21 : FVec Ideal S4000x128 .f32 := mulf v20 v19
  v21

theorem pay4_eq (v3 : FVec Ideal S4000x128 .f32) (v4 : FVec Ideal S128x64 .f32) (v6 : FVec Ideal S64 .f32) (v12 : FVec Ideal S64x256 .f32) (v14 : FVec Ideal S256 .f32) :
    k0_pay4 (F := Ideal) v3 v4 v6 v12 v14
      = concatenate S4000x256 1 [⟨S4000x128, truncf .bf16 (gatedBlk v3 v4 v6 v12 v14) bitsLt_bf16_f32⟩,
          ⟨S4000x128, truncf .bf16 (subf (gatedBlk v3 v4 v6 v12 v14) (gatedBlk v3 v4 v6 v12 v14)) bitsLt_bf16_f32⟩]
          concatenates_S4000x128_S4000x128_S4000x256_d1 := rfl

theorem hidBlk_apply (v3 : FVec Ideal S4000x128 .f32) (v4 : FVec Ideal S128x64 .f32) (v6 : FVec Ideal S64 .f32) (r : Fin 4000) (j : Fin 64) :
    hidBlk v3 v4 v6 (ix2 r j) = hid (fun k => v3 (ix2 r k)) (fun k j => v4 (ix2 k j)) (fun j => v6 (ix1 j)) j := by
  unfold hidBlk hid
  try dsimp only
  rw [maximumf_apply, addf_apply, mm_d1_apply, broadcastTo_1b_ab_apply, shapeCast_a_1a_apply, broadcast_apply]
  rw [Ideal.ofBits_def, Ideal.ofBits_zero_f32]

theorem pre2Blk_apply (v3 : FVec Ideal S4000x128 .f32) (v4 : FVec Ideal S128x64 .f32) (v6 : FVec Ideal S64 .f32) (v12 : FVec Ideal S64x256 .f32) (v14 : FVec Ideal S256 .f32) (r : Fin 4000) (q : Fin 256) :
    pre2Blk v3 v4 v6 v12 v14 (ix2 r q)
      = pre2 (fun k => v3 (ix2 r k)) (fun k j => v4 (ix2 k j)) (fun j => v6 (ix1 j)) (fun j q => v12 (ix2 j q)) (fun q => v14 (ix1 q)) q := by
  unfold pre2Blk pre2
  try dsimp only
  rw [addf_apply, mm_d2_apply, broadcastTo_1b_ab_apply, shapeCast_a_1a_apply]
  simp only [hidBlk_apply]

theorem gatedBlk_apply (v3 : FVec Ideal S4000x128 .f32) (v4 : FVec Ideal S128x64 .f32) (v6 : FVec Ideal S64 .f32) (v12 : FVec Ideal S64x256 .f32) (v14 : FVec Ideal S256 .f32) (r : Fin 4000) (f : Fin 128) :
    gatedBlk v3 v4 v6 v12 v14 (ix2 r f)
      = gated (fun k => v3 (ix2 r k)) (fun k j => v4 (ix2 k j)) (fun j => v6 (ix1 j)) (fun j q => v12 (ix2 j q)) (fun q => v14 (ix1 q)) f := by
  unfold gatedBlk gated
  try dsimp only
  rw [mulf_apply, slice2_axis1_eq, show (logistic (extractStridedSlice S4000x128 ![0, 0] (pre2Blk v3 v4 v6 v12 v14) slices_S4000x256_o0_0_S4000x128) : FVec Ideal S4000x128 .f32) (ix2 r f)
      = Ideal.logistic (extractStridedSlice S4000x128 ![0, 0] (pre2Blk v3 v4 v6 v12 v14) slices_S4000x256_o0_0_S4000x128 (ix2 r f)) from rfl, slice2_axis1_eq, pre2Blk_apply, pre2Blk_apply]
  simp only [Nat.zero_add, Nat.add_comm 128]

theorem pay4_hi (v3 : FVec Ideal S4000x128 .f32) (v4 : FVec Ideal S128x64 .f32) (v6 : FVec Ideal S64 .f32) (v12 : FVec Ideal S64x256 .f32) (v14 : FVec Ideal S256 .f32) (r : Fin 4000) (f : Fin 128) :
    k0_pay4 (F := Ideal) v3 v4 v6 v12 v14 (ix2 r (⟨f.val, by omega⟩ : Fin 256))
      = gated (fun k => v3 (ix2 r k)) (fun k j => v4 (ix2 k j)) (fun j => v6 (ix1 j)) (fun j q => v12 (ix2 j q)) (fun q => v14 (ix1 q)) f := by
  rw [pay4_eq]
  refine (concatenate_pair_apply_left (1 : Fin S4000x256.rank) _ _ concatenates_S4000x128_S4000x128_S4000x256_d1 (ix2 r (⟨f.val, by omega⟩ : Fin 256)) rfl (ix2 r f) (fun b => ?_)).trans ?_
  · match b with
    | ⟨0, _⟩ => rfl
    | ⟨1, _⟩ => rfl
  · exact gatedBlk_apply v3 v4 v6 v12 v14 r f

theorem pay4_lo (v3 : FVec Ideal S4000x128 .f32) (v4 : FVec Ideal S128x64 .f32) (v6 : FVec Ideal S64 .f32) (v12 : FVec Ideal S64x256 .f32) (v14 : FVec Ideal S256 .f32)
    (h0 : ∀ j, IsReal (v3 j)) (h2 : ∀ j, IsReal (v4 j)) (h3 : ∀ j, IsReal (v6 j)) (h4 : ∀ j, IsReal (v12 j)) (h5 : ∀ j, IsReal (v14 j))
    (r : Fin 4000) (f : Fin 128) :
    k0_pay4 (F := Ideal) v3 v4 v6 v12 v14 (ix2 r (⟨128 + f.val, by omega⟩ : Fin 256)) = 0 := by
  rw [pay4_eq]
  refine (concatenate_pair_apply_right (1 : Fin S4000x256.rank) _ _ concatenates_S4000x128_S4000x128_S4000x256_d1 (ix2 r (⟨128 + f.val, by omega⟩ : Fin 256)) rfl rfl (ix2 r f) (fun b hb => ?_) ?_).trans ?_
  · match b with
    | ⟨0, _⟩ => rfl
    | ⟨1, _⟩ => exact absurd rfl hb
  · show f.val + 128 = 128 + f.val
    omega
  · show gatedBlk v3 v4 v6 v12 v14 (ix2 r f) - gatedBlk v3 v4 v6 v12 v14 (ix2 r f) = 0
    rw [gatedBlk_apply]
    exact sub_self_of_isReal (gated_isReal _ _ _ _ _ (fun _ => h0 _) (fun _ _ => h2 _) (fun _ => h3 _) (fun _ _ => h4 _) (fun _ => h5 _) f)

end Cert.KernelIdeal.Val

end
-- ==== Proof.KI.R0StepB.lean ====
import proofs.«412652_j15187004358828_3_alg».proof.Proof.KI.R0StepA

/-! Region 0 over the extended reals, one column block of the accumulator: a one-hot entry is 1 exactly where the row's index word is the word of the graph at that column, so the product with the one-hot block adds the block's share of each graph's sums. -/

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.Spec

theorem bcol_apply (sh : IVec S4000x1 32) (r : Fin 4000) (g' : Fin 1024) :
    broadcastTo S4000x1024 sh broadcasts_S4000x1_S4000x1024 (ix2 r g') = sh (ix2 r (0 : Fin 1)) := by
  refine broadcastTo_apply sh broadcasts_S4000x1_S4000x1024 (ix2 r g') (ix2 r (0 : Fin 1)) fun ax => ?_
  match ax with
  | ⟨0, _⟩ => rfl
  | ⟨1, _⟩ => rfl

theorem sitofp_bit (b : Bool) :
    FloatOps.sitofp (F := Ideal) .f32 ((BitVec.ofBool b).setWidth 32) = if b then (1 : EReal) else 0 := by
  cases b
  · show (((BitVec.setWidth 32 (BitVec.ofBool false)).toInt : ℝ) : EReal) = 0
    rw [show (BitVec.setWidth 32 (BitVec.ofBool false)).toInt = 0 by decide]; simp
  · show (((BitVec.setWidth 32 (BitVec.ofBool true)).toInt : ℝ) : EReal) = 1
    rw [show (BitVec.setWidth 32 (BitVec.ofBool true)).toInt = 1 by decide]; simp

theorem onehot_apply (sh : IVec S4000x1 32) (r : Fin 4000) (g' : Fin 1024) :
    (truncf .bf16 (sitofp (F := Ideal) .f32 (extui 32 (cmpi .eq (iota .tc S4000x1024 32 [1] iota_S4000x1024_d1_w32)
        (broadcastTo S4000x1024 sh broadcasts_S4000x1_S4000x1024)) natLt_1_32)) bitsLt_bf16_f32 : FVec Ideal S4000x1024 .bf16) (ix2 r g')
      = if BitVec.ofNat 32 g'.val = sh (ix2 r (0 : Fin 1)) then (1 : EReal) else 0 := by
  show FloatOps.sitofp (F := Ideal) .f32 ((IntOp.cmpi .eq (iota .tc S4000x1024 32 [1] iota_S4000x1024_d1_w32 (ix2 r g'))
      (broadcastTo S4000x1024 sh broadcasts_S4000x1_S4000x1024 (ix2 r g'))).setWidth 32) = _
  rw [iota_single_apply, bcol_apply]
  show FloatOps.sitofp (F := Ideal) .f32 ((BitVec.ofBool (BitVec.ofNat 32 g'.val == sh (ix2 r (0 : Fin 1)))).setWidth 32) = _
  rw [sitofp_bit]
  simp only [beq_iff_eq]

/-- No wraparound makes a false match: the lane's word is the index word less `K` exactly when the index word is the lane's word plus `K`. -/
theorem shift_iff (x K : BitVec 32) (g' n : Nat) (h : BitVec.ofNat 32 n = BitVec.ofNat 32 g' + K) :
    BitVec.ofNat 32 g' = x - K ↔ x = BitVec.ofNat 32 n := by
  rw [h]
  constructor
  · intro e; rw [e, BitVec.sub_add_cancel]
  · intro e; rw [e, BitVec.add_sub_cancel]

theorem mm_d3_apply (a : FVec Ideal S4000x256 .bf16) (b : FVec Ideal S4000x1024 .bf16) (prec : Option ContractPrecision) (p : Fin 256) (g' : Fin 1024) :
    matmul dot_S4000x256_S4000x1024_S256x1024_0_0_1_1_n_n prec a b (constant S256x1024 .f32 0x00000000#32) (ix2 p g') = ∑ r : Fin 4000, a (ix2 r p) * b (ix2 r g') :=
  Cert.LibMatmul.matmul_zero_apply dot_S4000x256_S4000x1024_S256x1024_0_0_1_1_n_n 4000 rfl rfl _ _ _ _ (fun k => ix2 k p) (fun k => ix2 k g')
    (fun q => funext fun x => Fin.ext (by
      match x with
      | ⟨0, _⟩ => exact dot_S4000x256_S4000x1024_S256x1024_0_0_1_1_n_n.lhsIdx_val_of_single rfl _ _
      | ⟨1, _⟩ => exact Cert.LibMatmul.lhsIdx_val_of_non dot_S4000x256_S4000x1024_S256x1024_0_0_1_1_n_n (a := 1) (by decide) (by decide) 0 (by decide) _ _))
    (fun q => funext fun x => Fin.ext (by
      match x with
      | ⟨0, _⟩ => exact dot_S4000x256_S4000x1024_S256x1024_0_0_1_1_n_n.rhsIdx_val_of_single rfl _ _
      | ⟨1, _⟩ => exact Cert.LibMatmul.rhsIdx_val_of_non dot_S4000x256_S4000x1024_S256x1024_0_0_1_1_n_n (a := 1) (by decide) (by decide) 1 (by decide) _ _))

def onehot (sh : IVec S4000x1 32) : FVec Ideal S4000x1024 .bf16 :=
  truncf .bf16 (sitofp (F := Ideal) .f32 (extui 32 (cmpi .eq (iota .tc S4000x1024 32 [1] iota_S4000x1024_d1_w32)
    (broadcastTo S4000x1024 sh broadcasts_S4000x1_S4000x1024)) natLt_1_32)) bitsLt_bf16_f32

theorem onehot_eq (sh : IVec S4000x1 32) (r : Fin 4000) (g' : Fin 1024) :
    onehot sh (ix2 r g') = if BitVec.ofNat 32 g'.val = sh (ix2 r (0 : Fin 1)) then (1 : EReal) else 0 :=
  onehot_apply sh r g'

def prodBlk (v26 : FVec Ideal S4000x256 .bf16) (sh : IVec S4000x1 32) : FVec Ideal S256x1024 .f32 :=
  matmul dot_S4000x256_S4000x1024_S256x1024_0_0_1_1_n_n none v26 (onehot sh) (constant S256x1024 .f32 0x00000000#32)

theorem pay1_eq (v26 : FVec Ideal S4000x256 .bf16) (sh : IVec S4000x1 32) (old : FVec Ideal S128x1024 .f32) :
    k0_pay1 (F := Ideal) v26 (iota .tc S4000x1024 32 [1] iota_S4000x1024_d1_w32) sh old
      = shapeCast S128x1024 (addf (addf old (extractStridedSlice S128x1024 ![0, 0] (prodBlk v26 sh) slices_S256x1024_o0_0_S128x1024))
          (extractStridedSlice S128x1024 ![128, 0] (prodBlk v26 sh) slices_S256x1024_o128_0_S128x1024)) shapeCasts_S128x1024_S128x1024 := rfl

/-- The column update at (feature `f`, lane `g'`) of the block at column `K`: the old entry plus the rows' share of graph `K + g'`'s sum of feature `f`. -/
theorem col_apply (v3 : FVec Ideal S4000x128 .f32) (v4 : FVec Ideal S128x64 .f32) (v6 : FVec Ideal S64 .f32) (v12 : FVec Ideal S64x256 .f32) (v14 : FVec Ideal S256 .f32)
    (h0 : ∀ j, IsReal (v3 j)) (h2 : ∀ j, IsReal (v4 j)) (h3 : ∀ j, IsReal (v6 j)) (h4 : ∀ j, IsReal (v12 j)) (h5 : ∀ j, IsReal (v14 j))
    (x1 sh : IVec S4000x1 32) (K : Nat) (hK : K + 1024 ≤ 4096)
    (hsh : ∀ (r : Fin 4000) (g' : Fin 1024),
      BitVec.ofNat 32 g'.val = sh (ix2 r (0 : Fin 1)) ↔ x1 (ix2 r (0 : Fin 1)) = BitVec.ofNat 32 (K + g'.val))
    (old : FVec Ideal S128x1024 .f32) (f : Fin 128) (g' : Fin 1024) :
    k0_pay1 (F := Ideal) (k0_pay4 v3 v4 v6 v12 v14) (iota .tc S4000x1024 32 [1] iota_S4000x1024_d1_w32) sh old (ix2 f g')
      = old (ix2 f g') + blockTerm v3 x1 v4 v6 v12 v14 ⟨K + g'.val, by omega⟩ f := by
  rw [pay1_eq, shapeCast_self]
  show old (ix2 f g') + extractStridedSlice S128x1024 ![0, 0] (prodBlk (k0_pay4 v3 v4 v6 v12 v14) sh) slices_S256x1024_o0_0_S128x1024 (ix2 f g')
      + extractStridedSlice S128x1024 ![128, 0] (prodBlk (k0_pay4 v3 v4 v6 v12 v14) sh) slices_S256x1024_o128_0_S128x1024 (ix2 f g') = _
  rw [slice2_axis0_eq, slice2_axis0_eq]
  unfold prodBlk
  rw [mm_d3_apply, mm_d3_apply]
  have e1 : (∑ r : Fin 4000, k0_pay4 (F := Ideal) v3 v4 v6 v12 v14 (ix2 r (⟨0 + f.val, by omega⟩ : Fin 256)) * onehot sh (ix2 r g'))
      = blockTerm v3 x1 v4 v6 v12 v14 ⟨K + g'.val, by omega⟩ f := by
    unfold blockTerm
    refine Finset.sum_congr rfl fun r _ => ?_
    have e : (⟨0 + f.val, by omega⟩ : Fin 256) = ⟨f.val, by omega⟩ := Fin.ext (Nat.zero_add _)
    rw [e, pay4_hi, onehot_eq]
    by_cases hc : x1 (ix2 r (0 : Fin 1)) = BitVec.ofNat 32 (K + g'.val)
    · rw [if_pos hc, if_pos ((hsh r g').mpr hc), mul_one]
    · rw [if_neg hc, if_neg (fun h => hc ((hsh r g').mp h)), mul_zero]
  have e2 : (∑ r : Fin 4000, k0_pay4 (F := Ideal) v3 v4 v6 v12 v14 (ix2 r (⟨128 + f.val, by omega⟩ : Fin 256)) * onehot sh (ix2 r g')) = 0 :=
    Finset.sum_eq_zero fun r _ => by rw [pay4_lo v3 v4 v6 v12 v14 h0 h2 h3 h4 h5 r f, zero_mul]
  rw [e1, e2, add_zero]

theorem sh_iff (x1 : IVec S4000x1 32) (Kw : BitVec 32) (K : Nat) (hK : Kw = BitVec.ofNat 32 K) (r : Fin 4000) (g' : Fin 1024) :
    BitVec.ofNat 32 g'.val = subi (k0_pay5 (F := Ideal) x1) (broadcast S4000x1 Kw) (ix2 r (0 : Fin 1))
      ↔ x1 (ix2 r (0 : Fin 1)) = BitVec.ofNat 32 (K + g'.val) := by
  show BitVec.ofNat 32 g'.val = (shapeCast S4000x1 x1 shapeCasts_S4000x1_S4000x1) (ix2 r (0 : Fin 1)) - Kw ↔ _
  rw [shapeCast_self]
  exact shift_iff _ _ _ _ (by subst hK; rw [BitVec.ofNat_add, BitVec.add_comm])

theorem pay7_eq (v3 : FVec Ideal S4000x128 .f32) (v4 : FVec Ideal S128x64 .f32) (v6 : FVec Ideal S64 .f32) (v12 : FVec Ideal S64x256 .f32) (v14 : FVec Ideal S256 .f32)
    (v27 : IVec S4000x1 32) (v38 : FVec Ideal S128x1024 .f32) :
    k0_pay7 (F := Ideal) (k0_pay6 v3 v4 v6 v12 v14 v27) v38
      = k0_pay1 (k0_pay4 v3 v4 v6 v12 v14) (iota .tc S4000x1024 32 [1] iota_S4000x1024_d1_w32)
          (subi (k0_pay5 (F := Ideal) v27) (broadcast S4000x1 0#32)) v38 := rfl

theorem pay8_eq (v26 : FVec Ideal S4000x256 .bf16) (v28 : IVec S4000x1 32) (v29 : IVec S4000x1024 32) (v54 : FVec Ideal S128x1024 .f32) :
    k0_pay8 (F := Ideal) v26 v28 v29 v54 = k0_pay1 v26 v29 (subi v28 (broadcast S4000x1 1024#32)) v54 := rfl

theorem pay9_eq (v26 : FVec Ideal S4000x256 .bf16) (v28 : IVec S4000x1 32) (v29 : IVec S4000x1024 32) (v70 : FVec Ideal S128x1024 .f32) :
    k0_pay9 (F := Ideal) v26 v28 v29 v70 = k0_pay1 v26 v29 (subi v28 (broadcast S4000x1 2048#32)) v70 := rfl

theorem pay10_eq (v28 : IVec S4000x1 32) : k0_pay10 v28 = subi v28 (broadcast S4000x1 3072#32) := rfl

theorem col_emb (xs0 : FVec Ideal S128x4096 .f32) (B : Fin 4096 → Fin 128 → EReal) (K : Nat) (hK : K + 1024 ≤ 4096)
    (inb : ∀ a, (![0, K] : Fin 2 → ℕ) a + (![128, 1024] : Fin 2 → ℕ) a ≤ S128x4096.size a) (f : Fin 128) (g' : Fin 1024) :
    View.ld (Val := Elt Ideal) (e' := EltTy.f32) xs0 (Rect.unit (s := S128x4096) ![0, K] ![128, 1024] inb) (ix2 f g') + B ⟨K + g'.val, by omega⟩ f
      = (fun y : S128x4096.Idx => xs0 y + B ⟨(y 1).val, idx2_lt1 y⟩ ⟨(y 0).val, idx2_lt0 y⟩)
          ((Rect.unit (s := S128x4096) ![0, K] ![128, 1024] inb).emb (ix2 f g')) := by
  show xs0 ((Rect.unit (s := S128x4096) ![0, K] ![128, 1024] inb).emb (ix2 f g')) + _ = xs0 _ + _
  congr 2
  · apply Fin.ext
    show K + g'.val = K + 1 * g'.val
    omega
  · apply Fin.ext
    show f.val = 0 + 1 * f.val
    omega

end Cert.KernelIdeal.Val

end
-- ==== Proof.KI.R0Step.lean ====
import proofs.«412652_j15187004358828_3_alg».proof.Proof.KI.R0Frame
import proofs.«412652_j15187004358828_3_alg».proof.Proof.KI.R0StepB
import proofs.«412652_j15187004358828_3_alg».proof.Proof.Algebra
import Idealize.ShloMosaic.Lib.ValueIdx
import Idealize.ShloMosaic.Lib.ValueLayout
import Idealize.ShloMosaic.Lib.Pipeline.Value
import Idealize.ShloMosaic.PureOps.Ideal.Laws

/-! Region 0 over the extended reals, one grid point: entry (f, g) of the accumulator grows by the block's share of graph g's sum of feature f (from zero at a half's first point), and at a half's last point the output block is the updated accumulator. -/

set_option maxRecDepth 16384

noncomputable section

namespace Cert.KernelIdeal.Val

open Idealize.ShloMosaic Idealize.ShloMosaic.TcCoe Idealize.ShloMosaic.ValueIdx
open Idealize.ShloMosaic.Tactic
open Idealize.SL Idealize.SL.Sem
open Idealize.ShloMosaic.Pipeline (Dat Cfg Window)
open Cert.KernelIdeal Cert.KernelIdeal.Gen Cert.KernelIdeal.Hand Cert.Spec

/-- Pieces whose first ones all agree with a function `G`, read at an index one of those covers: `G` there, whatever lies behind them. -/
theorem canon_apply_of_prefix (G : S128x4096.Idx → Elt Ideal .f32) (L2 : List (View.Piece (Elt Ideal) S128x4096 .f32)) :
    ∀ (L1 : List (View.Piece (Elt Ideal) S128x4096 .f32)) (_ : ∀ p ∈ L1, ∀ x : p.1.shape.Idx, p.2 x = G (p.1.emb x)) (y : S128x4096.Idx)
      (_ : ∃ p ∈ L1, y ∈ p.1.set), View.canon (L1 ++ L2) y = G y
  | [], _, _, hy => by obtain ⟨p, hp, _⟩ := hy; simp at hp
  | p :: L, hL, y, hy => by
    by_cases hm : y ∈ p.1.set
    · obtain ⟨r, w⟩ := p
      obtain ⟨x, rfl⟩ := r.exists_idx_of_mem hm
      rw [List.cons_append, show r.idx x = r.emb x from rfl, View.canon_cons_emb]
      exact hL ⟨r, w⟩ (by simp) x
    · rw [List.cons_append, View.canon_cons_of_not_mem _ _ hm]
      refine canon_apply_of_prefix G L2 L (fun q hq => hL q (by simp [hq])) y ?_
      obtain ⟨q, hq, hyq⟩ := hy
      rcases List.mem_cons.mp hq with rfl | hq'
      · exact absurd hyq hm
      · exact ⟨q, hq', hyq⟩

theorem canon_cols_over (G : S128x4096.Idx → Elt Ideal .f32)
    (w3 : (Rect.unit (s := S128x4096) ![0, 3072] ![128, 1024] inb_S128x4096_S128x1024_0_3072).shape.Idx → Elt Ideal .f32) (w2 : (Rect.unit (s := S128x4096) ![0, 2048] S128x1024.size inb_S128x4096_S128x1024_0_2048).shape.Idx → Elt Ideal .f32)
    (w1 : (Rect.unit (s := S128x4096) ![0, 1024] S128x1024.size inb_S128x4096_S128x1024_0_1024).shape.Idx → Elt Ideal .f32) (w0 : (Rect.unit (s := S128x4096) ![0, 0] S128x1024.size inb_S128x4096_S128x1024_0_0).shape.Idx → Elt Ideal .f32) (z : View.Piece (Elt Ideal) S128x4096 .f32)
    (h3 : ∀ x, w3 x = G ((Rect.unit (s := S128x4096) ![0, 3072] ![128, 1024] inb_S128x4096_S128x1024_0_3072).emb x)) (h2 : ∀ x, w2 x = G ((Rect.unit (s := S128x4096) ![0, 2048] S128x1024.size inb_S128x4096_S128x1024_0_2048).emb x))
    (h1 : ∀ x, w1 x = G ((Rect.unit (s := S128x4096) ![0, 1024] S128x1024.size inb_S128x4096_S128x1024_0_1024).emb x)) (h0 : ∀ x, w0 x = G ((Rect.unit (s := S128x4096) ![0, 0] S128x1024.size inb_S128x4096_S128x1024_0_0).emb x)) (y : S128x4096.Idx) :
    View.canon [(⟨(Rect.unit (s := S128x4096) ![0, 3072] ![128, 1024] inb_S128x4096_S128x1024_0_3072), w3⟩ : View.Piece (Elt Ideal) S128x4096 .f32), ⟨(Rect.unit (s := S128x4096) ![0, 2048] S128x1024.size inb_S128x4096_S128x1024_0_2048), w2⟩, ⟨(Rect.unit (s := S128x4096) ![0, 1024] S128x1024.size inb_S128x4096_S128x1024_0_1024), w1⟩, ⟨(Rect.unit (s := S128x4096) ![0, 0] S128x1024.size inb_S128x4096_S128x1024_0_0), w0⟩, z] y = G y :=
  canon_apply_of_prefix G [z] [(⟨(Rect.unit (s := S128x4096) ![0, 3072] ![128, 1024] inb_S128x4096_S128x1024_0_3072), w3⟩ : View.Piece (Elt Ideal) S128x4096 .f32), ⟨(Rect.unit (s := S128x4096) ![0, 2048] S128x1024.size inb_S128x4096_S128x1024_0_2048), w2⟩, ⟨(Rect.unit (s := S128x4096) ![0, 1024] S128x1024.size inb_S128x4096_S128x1024_0_1024), w1⟩, ⟨(Rect.unit (s := S128x4096) ![0, 0] S128x1024.size inb_S128x4096_S128x1024_0_0), w0⟩]
    (by
      intro p hp
      simp only [List.mem_cons, List.not_mem_nil, or_false] at hp
      rcases hp with rfl | rfl | rfl | rfl
      exacts [h3, h2, h1, h0]) y
    (View.cover_of_tiledL [(⟨(Rect.unit (s := S128x4096) ![0, 3072] ![128, 1024] inb_S128x4096_S128x1024_0_3072), w3⟩ : View.Piece (Elt Ideal) S128x4096 .f32), ⟨(Rect.unit (s := S128x4096) ![0, 2048] S128x1024.size inb_S128x4096_S128x1024_0_2048), w2⟩, ⟨(Rect.unit (s := S128x4096) ![0, 1024] S128x1024.size inb_S128x4096_S128x1024_0_1024), w1⟩, ⟨(Rect.unit (s := S128x4096) ![0, 0] S128x1024.size inb_S128x4096_S128x1024_0_0), w0⟩] S128x1024.size (by sl_kernel_rfl) y)

theorem not_mem_col (K' : Nat) (inb : ∀ a, (![0, K'] : Fin 2 → ℕ) a + S128x1024.size a ≤ S128x4096.size a) (y : S128x4096.Idx)
    (h : (y 1).val < K' ∨ K' + 1024 ≤ (y 1).val) :
    y ∉ (Rect.unit (s := S128x4096) ![0, K'] S128x1024.size inb).set := by
  intro hm
  have hb := (Rect.mem_set_unit.mp hm) 1
  change K' ≤ (y 1).val ∧ (y 1).val < K' + 1024 at hb
  omega

theorem canon_skip_col (K' : Nat) (inb : ∀ a, (![0, K'] : Fin 2 → ℕ) a + S128x1024.size a ≤ S128x4096.size a)
    (w : (Rect.unit (s := S128x4096) ![0, K'] S128x1024.size inb).shape.Idx → Elt Ideal .f32) (L : List (View.Piece (Elt Ideal) S128x4096 .f32)) (y : S128x4096.Idx)
    (h : (y 1).val < K' ∨ K' + 1024 ≤ (y 1).val) :
    View.canon ((⟨Rect.unit (s := S128x4096) ![0, K'] S128x1024.size inb, w⟩ : View.Piece (Elt Ideal) S128x4096 .f32) :: L) y = View.canon L y :=
  View.canon_cons_of_not_mem _ _ (not_mem_col K' inb y h)

theorem pay3_apply (y : S128x4096.Idx) : k0_pay3 (F := Ideal) y = 0 := by
  unfold k0_pay3
  rw [shapeCast_self]
  show FloatOps.ofBits (F := Ideal) .f32 0x00000000#32 = 0
  rw [Ideal.ofBits_def, Ideal.ofBits_zero_f32]

def zacc : FVec Ideal S128x4096 .f32 := fun _ => 0

/-- One column update over the accumulator `xs0`, at the place its block sits: the old entry plus the block's share. -/
theorem col_piece (x0 : Vec Ideal S4000x128 .f32) (x1 : Vec Ideal S4000x1 .i32) (x2 : Vec Ideal S128x64 .f32) (x3 : Vec Ideal S64 .f32) (x4 : Vec Ideal S64x256 .f32) (x5 : Vec Ideal S256 .f32) (h0 : ∀ j, IsReal (x0 j)) (h2 : ∀ j, IsReal (x2 j)) (h3 : ∀ j, IsReal (x3 j)) (h4 : ∀ j, IsReal (x4 j)) (h5 : ∀ j, IsReal (x5 j))
    (xs0 : FVec Ideal S128x4096 .f32) (Kw : BitVec 32) (K : Nat) (hKw : Kw = BitVec.ofNat 32 K) (hK : K + 1024 ≤ 4096)
    (inb : ∀ a, (![0, K] : Fin 2 → ℕ) a + (![128, 1024] : Fin 2 → ℕ) a ≤ S128x4096.size a)
    (x : (Rect.unit (s := S128x4096) ![0, K] ![128, 1024] inb).shape.Idx) :
    k0_pay1 (F := Ideal) (k0_pay4 x0 x2 x3 x4 x5) (iota .tc S4000x1024 32 [1] iota_S4000x1024_d1_w32) (subi (k0_pay5 (F := Ideal) x1) (broadcast S4000x1 Kw))
        (View.ld (Val := Elt Ideal) (e' := EltTy.f32) xs0 (Rect.unit (s := S128x4096) ![0, K] ![128, 1024] inb)) x
      = (fun y : S128x4096.Idx => xs0 y + blockTerm x0 x1 x2 x3 x4 x5 ⟨(y 1).val, idx2_lt1 y⟩ ⟨(y 0).val, idx2_lt0 y⟩) ((Rect.unit (s := S128x4096) ![0, K] ![128, 1024] inb).emb x) := by
  obtain ⟨f', g', rfl⟩ : ∃ (f' : Fin 128) (g' : Fin 1024), x = ix2 f' g' := ⟨x 0, x 1, eq_ix2 x⟩
  exact (col_apply x0 x2 x3 x4 x5 h0 h2 h3 h4 h5 x1 _ K hK (sh_iff x1 Kw K hKw) _ f' g').trans
    (col_emb xs0 (fun g f => blockTerm x0 x1 x2 x3 x4 x5 g f) K hK inb f' g')

section
variable (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S128x64 .f32) (harg4 : arg4.IsWhole) (arg5 : Memref sig .tc .vmem S64 .f32) (harg5 : arg5.IsWhole) (arg6 : Memref sig .tc .vmem S64x256 .f32) (harg6 : arg6.IsWhole) (arg7 : Memref sig .tc .vmem S256 .f32) (harg7 : arg7.IsWhole) (arg8 : Memref sig .tc .vmem S1x128x4096 .f32) (harg8 : arg8.IsWhole) (arg9 : Memref sig .tc .vmem S128x4096 .f32) (harg9 : arg9.IsWhole) (x0 : Vec Ideal S4000x128 .f32) (x1 : Vec Ideal S4000x1 .i32) (x2 : Vec Ideal S128x64 .f32) (x3 : Vec Ideal S64 .f32) (x4 : Vec Ideal S64x256 .f32) (x5 : Vec Ideal S256 .f32) (h0 : ∀ j, IsReal (x0 j)) (h2 : ∀ j, IsReal (x2 j)) (h3 : ∀ j, IsReal (x3 j)) (h4 : ∀ j, IsReal (x4 j)) (h5 : ∀ j, IsReal (x5 j)) (f : Fin 128) (g : Fin 4096)
include h0 h2 h3 h4 h5

theorem sout0_A_0_apply (hc0 : cond0_0 i) (hc1 : ¬cond0_1 i) :
    rdS (kernelRun0_A (F := Ideal) c i arg2 harg2 arg3 harg3 arg4 harg4 arg5 harg5 arg6 harg6 arg7 harg7 arg8 harg8 arg9 harg9 hc0 hc1 x0 x1 x2 x3 x4 x5).2.1 (ix2 f g) = blockTerm x0 x1 x2 x3 x4 x5 g f := by
  unfold rdS
  rw [View.read_writes_eq_canon _ _ _ (View.cover_of_tiledL (kernelRun0_A (F := Ideal) c i arg2 harg2 arg3 harg3 arg4 harg4 arg5 harg5 arg6 harg6 arg7 harg7 arg8 harg8 arg9 harg9 hc0 hc1 x0 x1 x2 x3 x4 x5).2.1 S128x1024.size (by sl_kernel_rfl))]
  unfold kernelRun0_A
  dsimp only
  sl_unfold_words
  simp only [View.readAt_eq_ld, harg2.read_unread, harg3.read_unread, harg4.read_unread, harg5.read_unread, harg6.read_unread, harg7.read_unread,
    View.ld_unit_zero (S := S4000x128) hz2, View.ld_unit_zero (S := S4000x1) hz2, View.ld_unit_zero (S := S128x64) hz2, View.ld_unit_zero (S := S64) hz1, View.ld_unit_zero (S := S64x256) hz2, View.ld_unit_zero (S := S256) hz1]
  refine (canon_cols_over (fun y : S128x4096.Idx => zacc y + blockTerm x0 x1 x2 x3 x4 x5 ⟨(y 1).val, idx2_lt1 y⟩ ⟨(y 0).val, idx2_lt0 y⟩)
    _ _ _ _ _ ?_ ?_ ?_ ?_ (ix2 f g)).trans (zero_add _)
  · intro x
    obtain ⟨f', g', rfl⟩ : ∃ (f' : Fin 128) (g' : Fin 1024), x = ix2 f' g' := ⟨x 0, x 1, eq_ix2 x⟩
    rw [pay10_eq]
    refine (col_apply x0 x2 x3 x4 x5 h0 h2 h3 h4 h5 x1 _ 3072 (by omega) (sh_iff x1 3072#32 3072 rfl) _ f' g').trans ?_
    refine Eq.trans (congrArg (· + blockTerm x0 x1 x2 x3 x4 x5 ⟨3072 + g'.val, by omega⟩ f') ?_)
      (col_emb zacc (fun g f => blockTerm x0 x1 x2 x3 x4 x5 g f) 3072 (by omega) _ f' g')
    rw [View.readCov_eq_canon']
    show View.canon _ ((Rect.unit (s := S128x4096) ![0, 3072] ![128, 1024] inb_S128x4096_S128x1024_0_3072).idx (ix2 f' g')) = 0
    rw [canon_skip_col 2048 _ _ _ _ (Or.inr (by show 2048 + 1024 ≤ 3072 + 1 * g'.val; omega)), canon_skip_col 1024 _ _ _ _ (Or.inr (by show 1024 + 1024 ≤ 3072 + 1 * g'.val; omega)), canon_skip_col 0 _ _ _ _ (Or.inr (by show 0 + 1024 ≤ 3072 + 1 * g'.val; omega)), View.canon_unit_zero (S := S128x4096) hz2]
    exact pay3_apply _
  · intro x
    obtain ⟨f', g', rfl⟩ : ∃ (f' : Fin 128) (g' : Fin 1024), x = ix2 f' g' := ⟨x 0, x 1, eq_ix2 x⟩
    rw [pay9_eq]
    refine (col_apply x0 x2 x3 x4 x5 h0 h2 h3 h4 h5 x1 _ 2048 (by omega) (sh_iff x1 2048#32 2048 rfl) _ f' g').trans ?_
    refine Eq.trans (congrArg (· + blockTerm x0 x1 x2 x3 x4 x5 ⟨2048 + g'.val, by omega⟩ f') ?_)
      (col_emb zacc (fun g f => blockTerm x0 x1 x2 x3 x4 x5 g f) 2048 (by omega) _ f' g')
    rw [View.readCov_eq_canon']
    show View.canon _ ((Rect.unit (s := S128x4096) ![0, 2048] S128x1024.size inb_S128x4096_S128x1024_0_2048).idx (ix2 f' g')) = 0
    rw [canon_skip_col 1024 _ _ _ _ (Or.inr (by show 1024 + 1024 ≤ 2048 + 1 * g'.val; omega)), canon_skip_col 0 _ _ _ _ (Or.inr (by show 0 + 1024 ≤ 2048 + 1 * g'.val; omega)), View.canon_unit_zero (S := S128x4096) hz2]
    exact pay3_apply _
  · intro x
    obtain ⟨f', g', rfl⟩ : ∃ (f' : Fin 128) (g' : Fin 1024), x = ix2 f' g' := ⟨x 0, x 1, eq_ix2 x⟩
    rw [pay8_eq]
    refine (col_apply x0 x2 x3 x4 x5 h0 h2 h3 h4 h5 x1 _ 1024 (by omega) (sh_iff x1 1024#32 1024 rfl) _ f' g').trans ?_
    refine Eq.trans (congrArg (· + blockTerm x0 x1 x2 x3 x4 x5 ⟨1024 + g'.val, by omega⟩ f') ?_)
      (col_emb zacc (fun g f => blockTerm x0 x1 x2 x3 x4 x5 g f) 1024 (by omega) _ f' g')
    rw [View.readCov_eq_canon']
    show View.canon _ ((Rect.unit (s := S128x4096) ![0, 1024] S128x1024.size inb_S128x4096_S128x1024_0_1024).idx (ix2 f' g')) = 0
    rw [canon_skip_col 0 _ _ _ _ (Or.inr (by show 0 + 1024 ≤ 1024 + 1 * g'.val; omega)), View.canon_unit_zero (S := S128x4096) hz2]
    exact pay3_apply _
  · intro x
    obtain ⟨f', g', rfl⟩ : ∃ (f' : Fin 128) (g' : Fin 1024), x = ix2 f' g' := ⟨x 0, x 1, eq_ix2 x⟩
    rw [pay7_eq]
    refine (col_apply x0 x2 x3 x4 x5 h0 h2 h3 h4 h5 x1 _ 0 (by omega) (sh_iff x1 0#32 0 rfl) _ f' g').trans ?_
    refine Eq.trans (congrArg (· + blockTerm x0 x1 x2 x3 x4 x5 ⟨0 + g'.val, by omega⟩ f') ?_)
      (col_emb zacc (fun g f => blockTerm x0 x1 x2 x3 x4 x5 g f) 0 (by omega) _ f' g')
    rw [View.readCov_eq_canon']
    show View.canon _ ((Rect.unit (s := S128x4096) ![0, 0] S128x1024.size inb_S128x4096_S128x1024_0_0).idx (ix2 f' g')) = 0
    rw [View.canon_unit_zero (S := S128x4096) hz2]
    exact pay3_apply _

variable (xs0 : Vec Ideal S128x4096 .f32)

theorem sout0_B_0_apply (hc0 : ¬cond0_0 i) (hc1 : ¬cond0_1 i) :
    rdS (kernelRun0_B (F := Ideal) c i arg2 harg2 arg3 harg3 arg4 harg4 arg5 harg5 arg6 harg6 arg7 harg7 arg8 harg8 arg9 harg9 hc0 hc1 x0 x1 x2 x3 x4 x5 xs0).2.1 (ix2 f g) = xs0 (ix2 f g) + blockTerm x0 x1 x2 x3 x4 x5 g f := by
  unfold rdS
  have hcov := View.cover_of_tiledL (kernelRun0_B (F := Ideal) c i arg2 harg2 arg3 harg3 arg4 harg4 arg5 harg5 arg6 harg6 arg7 harg7 arg8 harg8 arg9 harg9 hc0 hc1 x0 x1 x2 x3 x4 x5 xs0).2.1 S128x1024.size (by sl_kernel_rfl)
  rw [View.read_writes_eq_canon _ _ _ hcov]
  refine (View.canon_apply_of_pieces (fun y : S128x4096.Idx => xs0 y + blockTerm x0 x1 x2 x3 x4 x5 ⟨(y 1).val, idx2_lt1 y⟩ ⟨(y 0).val, idx2_lt0 y⟩) _ ?_ (ix2 f g) (hcov (ix2 f g))).trans rfl
  unfold kernelRun0_B
  dsimp only
  sl_unfold_words
  simp only [View.readAt_eq_ld, harg2.read_unread, harg3.read_unread, harg4.read_unread, harg5.read_unread, harg6.read_unread, harg7.read_unread, harg9.read_unread,
    View.ld_unit_zero (S := S4000x128) hz2, View.ld_unit_zero (S := S4000x1) hz2, View.ld_unit_zero (S := S128x64) hz2, View.ld_unit_zero (S := S64) hz1, View.ld_unit_zero (S := S64x256) hz2, View.ld_unit_zero (S := S256) hz1]
  intro p hp
  simp only [List.mem_cons, List.not_mem_nil, or_false] at hp
  rcases hp with rfl | rfl | rfl | rfl
  · intro x; rw [pay10_eq]; exact col_piece x0 x1 x2 x3 x4 x5 h0 h2 h3 h4 h5 xs0 3072#32 3072 rfl (by omega) _ x
  · intro x; rw [pay9_eq]; exact col_piece x0 x1 x2 x3 x4 x5 h0 h2 h3 h4 h5 xs0 2048#32 2048 rfl (by omega) _ x
  · intro x; rw [pay8_eq]; exact col_piece x0 x1 x2 x3 x4 x5 h0 h2 h3 h4 h5 xs0 1024#32 1024 rfl (by omega) _ x
  · intro x; rw [pay7_eq]; exact col_piece x0 x1 x2 x3 x4 x5 h0 h2 h3 h4 h5 xs0 0#32 0 rfl (by omega) _ x

theorem sout0_C_0_apply (hc0 : ¬cond0_0 i) (hc1 : cond0_1 i) :
    rdS (kernelRun0_C (F := Ideal) c i arg2 harg2 arg3 harg3 arg4 harg4 arg5 harg5 arg6 harg6 arg7 harg7 arg8 harg8 arg9 harg9 hc0 hc1 x0 x1 x2 x3 x4 x5 xs0).2.1 (ix2 f g) = xs0 (ix2 f g) + blockTerm x0 x1 x2 x3 x4 x5 g f := by
  unfold rdS
  have hcov := View.cover_of_tiledL (kernelRun0_C (F := Ideal) c i arg2 harg2 arg3 harg3 arg4 harg4 arg5 harg5 arg6 harg6 arg7 harg7 arg8 harg8 arg9 harg9 hc0 hc1 x0 x1 x2 x3 x4 x5 xs0).2.1 S128x1024.size (by sl_kernel_rfl)
  rw [View.read_writes_eq_canon _ _ _ hcov]
  refine (View.canon_apply_of_pieces (fun y : S128x4096.Idx => xs0 y + blockTerm x0 x1 x2 x3 x4 x5 ⟨(y 1).val, idx2_lt1 y⟩ ⟨(y 0).val, idx2_lt0 y⟩) _ ?_ (ix2 f g) (hcov (ix2 f g))).trans rfl
  unfold kernelRun0_C
  dsimp only
  sl_unfold_words
  simp only [View.readAt_eq_ld, harg2.read_unread, harg3.read_unread, harg4.read_unread, harg5.read_unread, harg6.read_unread, harg7.read_unread, harg9.read_unread,
    View.ld_unit_zero (S := S4000x128) hz2, View.ld_unit_zero (S := S4000x1) hz2, View.ld_unit_zero (S := S128x64) hz2, View.ld_unit_zero (S := S64) hz1, View.ld_unit_zero (S := S64x256) hz2, View.ld_unit_zero (S := S256) hz1]
  intro p hp
  simp only [List.mem_cons, List.not_mem_nil, or_false] at hp
  rcases hp with rfl | rfl | rfl | rfl
  · intro x; rw [pay10_eq]; exact col_piece x0 x1 x2 x3 x4 x5 h0 h2 h3 h4 h5 xs0 3072#32 3072 rfl (by omega) _ x
  · intro x; rw [pay9_eq]; exact col_piece x0 x1 x2 x3 x4 x5 h0 h2 h3 h4 h5 xs0 2048#32 2048 rfl (by omega) _ x
  · intro x; rw [pay8_eq]; exact col_piece x0 x1 x2 x3 x4 x5 h0 h2 h3 h4 h5 xs0 1024#32 1024 rfl (by omega) _ x
  · intro x; rw [pay7_eq]; exact col_piece x0 x1 x2 x3 x4 x5 h0 h2 h3 h4 h5 xs0 0#32 0 rfl (by omega) _ x

theorem out0_C_6_apply (hc0 : ¬cond0_0 i) (hc1 : cond0_1 i) :
    rdO (kernelRun0_C (F := Ideal) c i arg2 harg2 arg3 harg3 arg4 harg4 arg5 harg5 arg6 harg6 arg7 harg7 arg8 harg8 arg9 harg9 hc0 hc1 x0 x1 x2 x3 x4 x5 xs0).1 (ix3 0 f g) = xs0 (ix2 f g) + blockTerm x0 x1 x2 x3 x4 x5 g f := by
  unfold rdO
  rw [View.read_writes_eq_canon _ _ _ (View.cover_of_tiledL (kernelRun0_C (F := Ideal) c i arg2 harg2 arg3 harg3 arg4 harg4 arg5 harg5 arg6 harg6 arg7 harg7 arg8 harg8 arg9 harg9 hc0 hc1 x0 x1 x2 x3 x4 x5 xs0).1 S1x128x4096.size (by sl_kernel_rfl))]
  unfold kernelRun0_C
  dsimp only
  sl_unfold_words
  rw [View.canon_unit_zero (S := S1x128x4096) hz3]
  unfold k0_pay2
  rw [shapeCast_ab_1ab_apply, View.readCov_eq_canon']
  show View.ld (Val := Elt Ideal) (e' := EltTy.f32) (View.canon _) (Rect.unit (s := S128x4096) ![0, 0] S128x4096.size inb_S128x4096_S128x4096_0_0) (ix2 f g) = _
  rw [View.ld_unit_zero (S := S128x4096) hz2]
  refine (View.canon_apply_of_pieces (fun y : S128x4096.Idx => xs0 y + blockTerm x0 x1 x2 x3 x4 x5 ⟨(y 1).val, idx2_lt1 y⟩ ⟨(y 0).val, idx2_lt0 y⟩) _ ?_ (ix2 f g)
    (View.cover_of_tiledL (s := S128x4096) _ S128x1024.size (by sl_kernel_rfl) (ix2 f g))).trans rfl
  simp only [View.readAt_eq_ld, harg2.read_unread, harg3.read_unread, harg4.read_unread, harg5.read_unread, harg6.read_unread, harg7.read_unread, harg9.read_unread,
    View.ld_unit_zero (S := S4000x128) hz2, View.ld_unit_zero (S := S4000x1) hz2, View.ld_unit_zero (S := S128x64) hz2, View.ld_unit_zero (S := S64) hz1, View.ld_unit_zero (S := S64x256) hz2, View.ld_unit_zero (S := S256) hz1]
  intro p hp
  simp only [List.mem_cons, List.not_mem_nil, or_false] at hp
  rcases hp with rfl | rfl | rfl | rfl
  · intro x; rw [pay10_eq]; exact col_piece x0 x1 x2 x3 x4 x5 h0 h2 h3 h4 h5 xs0 3072#32 3072 rfl (by omega) _ x
  · intro x; rw [pay9_eq]; exact col_piece x0 x1 x2 x3 x4 x5 h0 h2 h3 h4 h5 xs0 2048#32 2048 rfl (by omega) _ x
  · intro x; rw [pay8_eq]; exact col_piece x0 x1 x2 x3 x4 x5 h0 h2 h3 h4 h5 xs0 1024#32 1024 rfl (by omega) _ x
  · intro x; rw [pay7_eq]; exact col_piece x0 x1 x2 x3 x4 x5 h0 h2 h3 h4 h5 xs0 0#32 0 rfl (by omega) _ x

end

end Cert.KernelIdeal.Val

end
-- ==== Proof.KI.R0Acc.lean ====
import proofs.«412652_j15187004358828_3_alg».proof.Proof.KI.R0Step

/-! Region 0 over the extended reals, the whole grid: by induction over a half's points the accumulator holds the sum of the shares of the half's blocks so far; block `p` of a window is rows 4000 p … 4000 p + 3999 of its array; so the result array holds half `h`'s sums at (h, f, g). -/

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val / 125 ∧ win0_6.index t (1 : Fin 3) = 0 ∧ win0_6.index t (2 : Fin 3) = 0 :=
  (by decide +kernel : ∀ t : Fin grid0.N, _)

section
variable (V : (c : Dev nD) → (b : Ref sig .tc) → Buf (Elt Ideal) ((c : Thread nD τ).loc b))

abbrev xblk (c : Dev nD) (t : Fin cfg0.N) : Vec Ideal S4000x128 .f32 := iblk0 V c 0 t
abbrev nblk (c : Dev nD) (t : Fin cfg0.N) : Vec Ideal S4000x1 .i32 := iblk0 V c 1 t
abbrev w1blk (c : Dev nD) (t : Fin cfg0.N) : Vec Ideal S128x64 .f32 := iblk0 V c 2 t
abbrev b1blk (c : Dev nD) (t : Fin cfg0.N) : Vec Ideal S64 .f32 := iblk0 V c 3 t
abbrev w2blk (c : Dev nD) (t : Fin cfg0.N) : Vec Ideal S64x256 .f32 := iblk0 V c 4 t
abbrev b2blk (c : Dev nD) (t : Fin cfg0.N) : Vec Ideal S256 .f32 := iblk0 V c 5 t
abbrev xarr (c : Dev nD) : S1000000x128.Idx → EReal := V c main_arg0
abbrev narr (c : Dev nD) : S1000000x1.Idx → BitVec 32 := V c main_v0
abbrev w1arr (c : Dev nD) : S128x64.Idx → EReal := V c main_arg2
abbrev b1arr (c : Dev nD) : S64.Idx → EReal := V c main_arg3
abbrev w2arr (c : Dev nD) : S64x256.Idx → EReal := V c main_arg4
abbrev b2arr (c : Dev nD) : S256.Idx → EReal := V c main_arg5

theorem xblk_apply (c : Dev nD) (t : Fin cfg0.N) (p : Fin 250) (hp : t.val = p.val) (r : Fin 4000) (k : Fin 128) :
    xblk V c t (ix2 r k) = xarr V c (ix2 (⟨p.val * 4000 + r.val, by omega⟩ : Fin 1000000) k) := by
  obtain ⟨e0, e1, -⟩ := idx_facts0 t
  show V c main_arg0 (((cfg0.win 0).blk t).view.emb (ix2 r k)) = V c main_arg0 _
  refine congrArg (V c main_arg0) ?_
  funext a; apply Fin.ext
  match a with
  | ⟨0, _⟩ => show win0_0.index t (0 : Fin 2) * 4000 + 1 * r.val = p.val * 4000 + r.val; rw [e0]; omega
  | ⟨1, _⟩ => show win0_0.index t (1 : Fin 2) * 128 + 1 * k.val = k.val; rw [e1]; omega

theorem nblk_apply (c : Dev nD) (t : Fin cfg0.N) (p : Fin 250) (hp : t.val = p.val) (r : Fin 4000) :
    nblk V c t (ix2 r 0) = narr V c (ix2 (⟨p.val * 4000 + r.val, by omega⟩ : Fin 1000000) 0) := by
  obtain ⟨-, -, e0, e1, -⟩ := idx_facts0 t
  show V c main_v0 (((cfg0.win 1).blk t).view.emb (ix2 r 0)) = V c main_v0 _
  refine congrArg (V c main_v0) ?_
  funext a; apply Fin.ext
  match a with
  | ⟨0, _⟩ => show win0_1.index t (0 : Fin 2) * 4000 + 1 * r.val = p.val * 4000 + r.val; rw [e0]; omega
  | ⟨1, _⟩ => show win0_1.index t (1 : Fin 2) * 1 + 1 * 0 = 0; rw [e1]

end

section
variable (V : (c : Dev nD) → (b : Ref sig .tc) → Buf (Elt Ideal) ((c : Thread nD τ).loc b))

theorem w1blk_eq (c : Dev nD) (t : Fin cfg0.N) : w1blk V c t = w1arr V c := by
  obtain ⟨-, -, -, -, e0, e1, -⟩ := idx_facts0 t
  funext y
  show V c main_arg2 (((cfg0.win 2).blk t).view.emb y) = V c main_arg2 y
  refine congrArg (V c main_arg2) ?_
  funext a; apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

theorem b1blk_eq (c : Dev nD) (t : Fin cfg0.N) : b1blk V c t = b1arr V c := by
  obtain ⟨-, -, -, -, -, -, e0, -⟩ := idx_facts0 t
  funext y
  show V c main_arg3 (((cfg0.win 3).blk t).view.emb y) = V c main_arg3 y
  refine congrArg (V c main_arg3) ?_
  funext a; apply Fin.ext
  match a with
  | ⟨0, _⟩ => show win0_3.index t (0 : Fin 1) * 64 + 1 * (y 0).val = (y 0).val; rw [e0]; omega

theorem w2blk_eq (c : Dev nD) (t : Fin cfg0.N) : w2blk V c t = w2arr V c := by
  obtain ⟨-, -, -, -, -, -, -, e0, e1, -⟩ := idx_facts0 t
  funext y
  show V c main_arg4 (((cfg0.win 4).blk t).view.emb y) = V c main_arg4 y
  refine congrArg (V c main_arg4) ?_
  funext a; apply Fin.ext
  match a with
  | ⟨0, _⟩ => show win0_4.index t (0 : Fin 2) * 64 + 1 * (y 0).val = (y 0).val; rw [e0]; omega
  | ⟨1, _⟩ => show win0_4.index t (1 : Fin 2) * 256 + 1 * (y 1).val = (y 1).val; rw [e1]; omega

theorem b2blk_eq (c : Dev nD) (t : Fin cfg0.N) : b2blk V c t = b2arr V c := by
  obtain ⟨-, -, -, -, -, -, -, -, -, e0, -⟩ := idx_facts0 t
  funext y
  show V c main_arg5 (((cfg0.win 5).blk t).view.emb y) = V c main_arg5 y
  refine congrArg (V c main_arg5) ?_
  funext a; apply Fin.ext
  match a with
  | ⟨0, _⟩ => show win0_5.index t (0 : Fin 1) * 256 + 1 * (y 0).val = (y 0).val; rw [e0]; omega

theorem xblk_real (c : Dev nD) (h0 : ∀ j, IsReal (V c main_arg0 j)) (t : Fin cfg0.N) (j : S4000x128.Idx) : IsReal (xblk V c t j) := by
  show IsReal (V c main_arg0 (((cfg0.win 0).blk t).view.emb j))
  exact h0 _

theorem w1blk_real (c : Dev nD) (h2 : ∀ j, IsReal (V c main_arg2 j)) (t : Fin cfg0.N) (j : S128x64.Idx) : IsReal (w1blk V c t j) := by
  rw [w1blk_eq]; exact h2 j
theorem b1blk_real (c : Dev nD) (h3 : ∀ j, IsReal (V c main_arg3 j)) (t : Fin cfg0.N) (j : S64.Idx) : IsReal (b1blk V c t j) := by
  rw [b1blk_eq]; exact h3 j
theorem w2blk_real (c : Dev nD) (h4 : ∀ j, IsReal (V c main_arg4 j)) (t : Fin cfg0.N) (j : S64x256.Idx) : IsReal (w2blk V c t j) := by
  rw [w2blk_eq]; exact h4 j
theorem b2blk_real (c : Dev nD) (h5 : ∀ j, IsReal (V c main_arg5 j)) (t : Fin cfg0.N) (j : S256.Idx) : IsReal (b2blk V c t j) := by
  rw [b2blk_eq]; exact h5 j

end

theorem blockTerm_eq_blockSum (xb : S4000x128.Idx → EReal) (ib : S4000x1.Idx → BitVec 32) (W1 : SW1.Idx → EReal) (b1 : SB1.Idx → EReal)
    (W2 : SW2.Idx → EReal) (b2 : SB2.Idx → EReal) (x : SX.Idx → EReal) (idx : S1000000x1.Idx → BitVec 32) (p : Fin 250)
    (hx : ∀ (r : Fin 4000) (k : Fin 128), xb (ix2 r k) = x (ix2 (⟨p.val * 4000 + r.val, by omega⟩ : Fin 1000000) k))
    (hi : ∀ r : Fin 4000, ib (ix2 r 0) = idx (ix2 (⟨p.val * 4000 + r.val, by omega⟩ : Fin 1000000) 0))
    (g : Fin 4096) (f : Fin 128) :
    blockTerm xb ib W1 b1 W2 b2 g f = blockSum (fun n => idx (ix2 n 0)) (gatedOf x W1 b1 W2 b2) p g f := by
  unfold blockTerm blockSum gatedOf
  refine Finset.sum_congr rfl fun r _ => ?_
  rw [hi r]
  simp only [hx r]

section
variable (V : (c : Dev nD) → (b : Ref sig .tc) → Buf (Elt Ideal) ((c : Thread nD τ).loc b))

def term0 (c : Dev nD) (t : Fin cfg0.N) (g : Fin 4096) (f : Fin 128) : EReal :=
  blockTerm (xblk V c t) (nblk V c t) (w1blk V c t) (b1blk V c t) (w2blk V c t) (b2blk V c t) g f

def termN (c : Dev nD) (n : ℕ) (g : Fin 4096) (f : Fin 128) : EReal :=
  if h : n < cfg0.N then term0 V c ⟨n, h⟩ g f else 0

theorem acc_same (c : Dev nD) (u u' : ℕ) (hu : u < cfg0.N) (hu' : u' < cfg0.N) (e : u = u') :
    (outsAt0 V c u hu).2 = (outsAt0 V c u' hu').2 := by
  subst e; rfl

theorem termN_eq (c : Dev nD) (n : ℕ) (p : Fin 250) (hp : n = p.val) (g : Fin 4096) (f : Fin 128) :
    termN V c n g f = blockSum (fun n => V c main_v0 (ix2 n 0)) (gatedOf (V c main_arg0) (V c main_arg2) (V c main_arg3) (V c main_arg4) (V c main_arg5)) p g f := by
  have hn : n < cfg0.N := by have : cfg0.N = 250 := N_0; omega
  unfold termN
  rw [dif_pos hn]
  unfold term0
  rw [w1blk_eq, b1blk_eq, w2blk_eq, b2blk_eq]
  exact blockTerm_eq_blockSum (xblk V c ⟨n, hn⟩) (nblk V c ⟨n, hn⟩) (w1arr V c) (b1arr V c) (w2arr V c) (b2arr V c) (xarr V c) (narr V c) p
    (xblk_apply V c ⟨n, hn⟩ p hp) (nblk_apply V c ⟨n, hn⟩ p hp) g f

theorem sum_termN_eq (c : Dev nD) (h : Fin 2) (g : Fin 4096) (f : Fin 128) :
    ∑ s ∈ Finset.range 125, termN V c (125 * h.val + s) g f
      = halfSum (fun n => V c main_v0 (ix2 n 0)) (gatedOf (V c main_arg0) (V c main_arg2) (V c main_arg3) (V c main_arg4) (V c main_arg5)) h g f := by
  unfold halfSum
  rw [Finset.sum_range (fun s => termN V c (125 * h.val + s) g f)]
  refine Finset.sum_congr rfl fun s _ => ?_
  exact termN_eq V c (125 * h.val + s.val) ⟨h.val * 125 + s.val, by omega⟩ (by dsimp only; omega) g f

abbrev resG (c : Dev nD) : S2x128x4096.Idx → EReal := fun i =>
  halfSum (fun n => V c main_v0 (ix2 n 0)) (gatedOf (V c main_arg0) (V c main_arg2) (V c main_arg3) (V c main_arg4) (V c main_arg5)) (i 0) (i 2) (i 1)

end

theorem mem_blk6 (t : Fin cfg0.N) (i : S2x128x4096.Idx) :
    i ∈ ((cfg0.win 6).blk t).view.set ↔ ∀ a : Fin 3, win0_6.index t a * S1x128x4096.size a ≤ (i a).val ∧ (i a).val < win0_6.index t a * S1x128x4096.size a + S1x128x4096.size a := by
  show i ∈ ((View.whole main_v1).slice (win0_6.rect t)).set ↔ _
  rw [View.set_slice_whole, Rect.mem_set_unit]
  exact Iff.rfl

theorem cover6 (i : S2x128x4096.Idx) : ∃ t : Fin cfg0.N, (cfg0.win 6).flush t = true ∧ i ∈ ((cfg0.win 6).blk t).view.set := by
  have hN : cfg0.N = 250 := N_0
  have hi0 : (i 0).val < 2 := (i 0).isLt
  have hi1 : (i 1).val < 128 := (i 1).isLt
  have hi2 : (i 2).val < 4096 := (i 2).isLt
  have hlt : 125 * (i 0).val + 124 < cfg0.N := by omega
  refine ⟨⟨125 * (i 0).val + 124, hlt⟩, (flush0_6 _).mpr (by dsimp only; omega), ?_⟩
  obtain ⟨-, -, -, -, -, -, -, -, -, -, e0, e1, e2⟩ := idx_facts0 ⟨125 * (i 0).val + 124, hlt⟩
  rw [mem_blk6]
  intro a
  match a with
  | ⟨0, _⟩ =>
    show win0_6.index ⟨125 * (i 0).val + 124, hlt⟩ (0 : Fin 3) * 1 ≤ (i 0).val ∧ (i 0).val < win0_6.index ⟨125 * (i 0).val + 124, hlt⟩ (0 : Fin 3) * 1 + 1
    rw [e0]; dsimp only; omega
  | ⟨1, _⟩ =>
    show win0_6.index ⟨125 * (i 0).val + 124, hlt⟩ (1 : Fin 3) * 128 ≤ (i 1).val ∧ (i 1).val < win0_6.index ⟨125 * (i 0).val + 124, hlt⟩ (1 : Fin 3) * 128 + 128
    rw [e1]; omega
  | ⟨2, _⟩ =>
    show win0_6.index ⟨125 * (i 0).val + 124, hlt⟩ (2 : Fin 3) * 4096 ≤ (i 2).val ∧ (i 2).val < win0_6.index ⟨125 * (i 0).val + 124, hlt⟩ (2 : Fin 3) * 4096 + 4096
    rw [e2]; omega

section
variable (V : (c : Dev nD) → (b : Ref sig .tc) → Buf (Elt Ideal) ((c : Thread nD τ).loc b)) (c : Dev nD)
  (h0 : ∀ j, IsReal (V c main_arg0 j)) (h2 : ∀ j, IsReal (V c main_arg2 j)) (h3 : ∀ j, IsReal (V c main_arg3 j))
    (h4 : ∀ j, IsReal (V c main_arg4 j)) (h5 : ∀ j, IsReal (V c main_arg5 j))
include h0 h2 h3 h4 h5

theorem acc_A (t : Fin cfg0.N) (hA : t.val % 125 = 0) (hA' : ¬t.val % 125 = 124) (f : Fin 128) (g : Fin 4096) :
    (outsAt0 V c t.val t.isLt).2 (ix2 f g) = term0 V c t g f := by
  rw [outsAt0_A V c t hA hA']
  unfold outA; dsimp only
  unfold term0
  exact sout0_A_0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (xblk V c t) (nblk V c t) (w1blk V c t) (b1blk V c t) (w2blk V c t) (b2blk V c t) (xblk_real V c h0 t) (w1blk_real V c h2 t) (b1blk_real V c h3 t) (w2blk_real V c h4 t) (b2blk_real V c h5 t) f g ((hcond0 t).1.mpr hA) (fun h => hA' ((hcond0 t).2.mp h))

theorem acc_B (t : Fin cfg0.N) (hB : ¬t.val % 125 = 0) (hB' : ¬t.val % 125 = 124) (f : Fin 128) (g : Fin 4096) :
    (outsAt0 V c t.val t.isLt).2 (ix2 f g)
      = (outsAt0 V c (t.val - 1) (Nat.lt_of_le_of_lt (Nat.sub_le _ _) t.isLt)).2 (ix2 f g) + term0 V c t g f := by
  rw [outsAt0_B V c t hB hB']
  unfold outB; dsimp only
  unfold term0
  exact sout0_B_0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (xblk V c t) (nblk V c t) (w1blk V c t) (b1blk V c t) (w2blk V c t) (b2blk V c t) (xblk_real V c h0 t) (w1blk_real V c h2 t) (b1blk_real V c h3 t) (w2blk_real V c h4 t) (b2blk_real V c h5 t) f g (outsAt0 V c (t.val - 1) (Nat.lt_of_le_of_lt (Nat.sub_le _ _) t.isLt)).2 (fun h => hB ((hcond0 t).1.mp h)) (fun h => hB' ((hcond0 t).2.mp h))

theorem acc_C (t : Fin cfg0.N) (hC : ¬t.val % 125 = 0) (hC' : t.val % 125 = 124) (f : Fin 128) (g : Fin 4096) :
    (outsAt0 V c t.val t.isLt).2 (ix2 f g)
      = (outsAt0 V c (t.val - 1) (Nat.lt_of_le_of_lt (Nat.sub_le _ _) t.isLt)).2 (ix2 f g) + term0 V c t g f := by
  rw [outsAt0_C V c t hC hC']
  unfold outC; dsimp only
  unfold term0
  exact sout0_C_0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (xblk V c t) (nblk V c t) (w1blk V c t) (b1blk V c t) (w2blk V c t) (b2blk V c t) (xblk_real V c h0 t) (w1blk_real V c h2 t) (b1blk_real V c h3 t) (w2blk_real V c h4 t) (b2blk_real V c h5 t) f g (outsAt0 V c (t.val - 1) (Nat.lt_of_le_of_lt (Nat.sub_le _ _) t.isLt)).2 (fun h => hC ((hcond0 t).1.mp h)) ((hcond0 t).2.mpr hC')

theorem out_C (t : Fin cfg0.N) (hC : ¬t.val % 125 = 0) (hC' : t.val % 125 = 124) (f : Fin 128) (g : Fin 4096) :
    (outsAt0 V c t.val t.isLt).1 (ix3 0 f g)
      = (outsAt0 V c (t.val - 1) (Nat.lt_of_le_of_lt (Nat.sub_le _ _) t.isLt)).2 (ix2 f g) + term0 V c t g f := by
  rw [outsAt0_C V c t hC hC']
  unfold outC; dsimp only
  unfold term0
  exact out0_C_6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (xblk V c t) (nblk V c t) (w1blk V c t) (b1blk V c t) (w2blk V c t) (b2blk V c t) (xblk_real V c h0 t) (w1blk_real V c h2 t) (b1blk_real V c h3 t) (w2blk_real V c h4 t) (b2blk_real V c h5 t) f g (outsAt0 V c (t.val - 1) (Nat.lt_of_le_of_lt (Nat.sub_le _ _) t.isLt)).2 (fun h => hC ((hcond0 t).1.mp h)) ((hcond0 t).2.mpr hC')

/-- THE INVARIANT, by induction on `j`: after point 125 q + j the accumulator holds the sum of the shares of points 125 q … 125 q + j. -/
theorem acc_inv (q : ℕ) (f : Fin 128) (g : Fin 4096) :
    ∀ (j : ℕ) (hj : j < 125) (hn : 125 * q + j < cfg0.N),
      (outsAt0 V c (125 * q + j) hn).2 (ix2 f g) = ∑ s ∈ Finset.range (j + 1), termN V c (125 * q + s) g f
  | 0, hj, hn => by
    rw [Finset.sum_range_one]
    refine (acc_A V c h0 h2 h3 h4 h5 ⟨125 * q + 0, hn⟩ (by dsimp only; omega) (by dsimp only; omega) f g).trans ?_
    have hterm : termN V c (125 * q + 0) g f = term0 V c ⟨125 * q + 0, hn⟩ g f := dif_pos hn
    exact hterm.symm
  | j + 1, hj, hn => by
    have hB : ¬(⟨125 * q + (j + 1), hn⟩ : Fin cfg0.N).val % 125 = 0 := by dsimp only; omega
    have hp : 125 * q + j < cfg0.N := by omega
    have ih := acc_inv q f g j (by omega) hp
    have hterm : termN V c (125 * q + (j + 1)) g f = term0 V c ⟨125 * q + (j + 1), hn⟩ g f := dif_pos hn
    rw [Finset.sum_range_succ, ← ih, hterm]
    have hsame := acc_same V c ((⟨125 * q + (j + 1), hn⟩ : Fin cfg0.N).val - 1) (125 * q + j)
      (Nat.lt_of_le_of_lt (Nat.sub_le _ _) hn) hp (by dsimp only; omega)
    by_cases hC : (⟨125 * q + (j + 1), hn⟩ : Fin cfg0.N).val % 125 = 124
    · refine (acc_C V c h0 h2 h3 h4 h5 ⟨125 * q + (j + 1), hn⟩ hB hC f g).trans ?_
      rw [hsame]
    · refine (acc_B V c h0 h2 h3 h4 h5 ⟨125 * q + (j + 1), hn⟩ hB hC f g).trans ?_
      rw [hsame]

theorem out_last (t : Fin cfg0.N) (q : ℕ) (hq : t.val = 125 * q + 124)
    (f : Fin 128) (g : Fin 4096) :
    (outsAt0 V c t.val t.isLt).1 (ix3 0 f g) = ∑ s ∈ Finset.range 125, termN V c (125 * q + s) g f := by
  have hp : 125 * q + 123 < cfg0.N := by have := t.isLt; omega
  have hterm : termN V c (125 * q + 124) g f = term0 V c t g f := by
    have hn : 125 * q + 124 < cfg0.N := by have := t.isLt; omega
    have e : t = ⟨125 * q + 124, hn⟩ := Fin.ext hq
    subst e; exact dif_pos hn
  rw [Finset.sum_range_succ, ← acc_inv V c h0 h2 h3 h4 h5 q f g 123 (by omega) hp, hterm]
  refine (out_C V c h0 h2 h3 h4 h5 t (by omega) (by omega) f g).trans ?_
  rw [acc_same V c (t.val - 1) (125 * q + 123) (Nat.lt_of_le_of_lt (Nat.sub_le _ _) t.isLt) hp (by omega)]

theorem flushed6_eq (t : Fin cfg0.N) (hf : (cfg0.win 6).flush t = true) :
    (dat0 V c).flushed 6 t = ((cfg0.win 6).blk t).view.read (Elt Ideal) (resG V c) := by
  have hC : t.val % 125 = 124 := (flush0_6 t).mp hf
  have hN : cfg0.N = 250 := N_0
  have hlt := t.isLt
  obtain ⟨-, -, -, -, -, -, -, -, -, -, e0, e1, e2⟩ := idx_facts0 t
  show (cfg0.win 6).cut (grid0.coords t) (outsAt0 V c t.val t.isLt).1 = _
  refine funext fun (y : S1x128x4096.Idx) => ?_
  obtain ⟨a, f, g, rfl⟩ : ∃ (a : Fin 1) (f : Fin 128) (g : Fin 4096), y = ix3 a f g := ⟨y 0, y 1, y 2, eq_ix3 y⟩
  obtain rfl : a = 0 := Subsingleton.elim _ _
  have hemb : ((cfg0.win 6).blk t).view.emb (ix3 (0 : Fin 1) f g) = ix3 (⟨t.val / 125, by omega⟩ : Fin 2) f g := by
    funext a; apply Fin.ext
    match a with
    | ⟨0, _⟩ => show win0_6.index t (0 : Fin 3) * 1 + 1 * 0 = t.val / 125; rw [e0]; omega
    | ⟨1, _⟩ => show win0_6.index t (1 : Fin 3) * 128 + 1 * f.val = f.val; rw [e1]; omega
    | ⟨2, _⟩ => show win0_6.index t (2 : Fin 3) * 4096 + 1 * g.val = g.val; rw [e2]; omega
  show (outsAt0 V c t.val t.isLt).1 (ix3 0 f g) = resG V c (((cfg0.win 6).blk t).view.emb (ix3 0 f g))
  rw [hemb]
  show _ = halfSum _ _ (⟨t.val / 125, _⟩ : Fin 2) g f
  rw [← sum_termN_eq]
  exact out_last V c h0 h2 h3 h4 h5 t (t.val / 125) (by omega) f g

/-- Region 0's result array: entry (h, f, g) is half `h`'s share of graph `g`'s sum of feature `f`. -/
theorem final0 (h : Fin 2) (f : Fin 128) (g : Fin 4096) :
    (dat0 (F := Ideal) V c).arrAt 6 cfg0.N (ix3 h f g)
      = halfSum (fun n => V c main_v0 (ix2 n 0)) (gatedOf (V c main_arg0) (V c main_arg2) (V c main_arg3) (V c main_arg4) (V c main_arg5)) h g f := by
  have hfin := (dat0 (F := Ideal) V c).arrAt_eq_of_cover 6 (resG V c) (fun t hf => flushed6_eq V c h0 h2 h3 h4 h5 t hf) cover6
  exact congrFun hfin (ix3 h f g)

end

end Cert.KernelIdeal.Val

end
-- ==== Proof.KI.R1Value.lean ====
import proofs.«412652_j15187004358828_3_alg».proof.Proof.KI.R1Frame
import proofs.«412652_j15187004358828_3_alg».proof.Proof.Spec
import proofs.«412652_j15187004358828_3_alg».proof.Proof.LibMatmul
import Idealize.ShloMosaic.Lib.ValueIdx
import Idealize.ShloMosaic.Lib.ValueLayout
import Idealize.ShloMosaic.Lib.Pipeline.Value
import Idealize.ShloMosaic.PureOps.Ideal.Laws

/-! Region 1 over the extended reals: its one store writes, at (g, o), the graph network applied to the sums of the two halves' entries (·, f, g); its one grid point's blocks are the whole arrays, so that is the result array. -/

set_option maxRecDepth 16384

noncomputable section

namespace Cert.KernelIdeal.Val

open Idealize.ShloMosaic Idealize.ShloMosaic.TcCoe Idealize.ShloMosaic.ValueIdx
open Idealize.ShloMosaic.Tactic
open Idealize.SL Idealize.SL.Sem
open Idealize.ShloMosaic.Pipeline (Dat Cfg Window)
open Cert.KernelIdeal Cert.KernelIdeal.Gen Cert.KernelIdeal.Hand Cert.Spec

section Piece
variable {F : FTy → Type} [FloatOps F]

abbrev half0 (x0 : Vec F S2x128x4096 .f32) : Vec F S1x128x4096 .f32 :=
  View.ld x0 (Rect.unit (s := S2x128x4096) ![0, 0, 0] S1x128x4096.size inb_S2x128x4096_S1x128x4096_0_0_0)
abbrev half1 (x0 : Vec F S2x128x4096 .f32) : Vec F S1x128x4096 .f32 :=
  View.ld x0 (Rect.unit (s := S2x128x4096) ![1, 0, 0] S1x128x4096.size inb_S2x128x4096_S1x128x4096_1_0_0)

variable (c : Dev nD) (i : grid1.Coords) (arg1 : Memref sig .tc .vmem S2x128x4096 .f32) (harg1 : arg1.IsWhole) (arg2 : Memref sig .tc .vmem S128x32 .f32) (harg2 : arg2.IsWhole) (arg3 : Memref sig .tc .vmem S32 .f32) (harg3 : arg3.IsWhole) (arg4 : Memref sig .tc .vmem S32x16 .f32) (harg4 : arg4.IsWhole) (arg5 : Memref sig .tc .vmem S16 .f32) (harg5 : arg5.IsWhole) (arg6 : Memref sig .tc .vmem S4096x16 .f32) (harg6 : arg6.IsWhole) (x0 : Vec F S2x128x4096 .f32) (x1 : Vec F S128x32 .f32) (x2 : Vec F S32 .f32) (x3 : Vec F S32x16 .f32) (x4 : Vec F S16 .f32)

theorem out1_eq : out1_A_5 c i arg1 harg1 arg2 harg2 arg3 harg3 arg4 harg4 arg5 harg5 arg6 harg6 x0 x1 x2 x3 x4 = k1_pay1 (half0 x0) (half1 x0) x1 x2 x3 x4 := by
  unfold out1_A_5
  rw [View.read_writes_eq_canon _ _ _ (View.cover_of_tiledL (kernelRun1_A c i arg1 harg1 arg2 harg2 arg3 harg3 arg4 harg4 arg5 harg5 arg6 harg6 x0 x1 x2 x3 x4).1 S4096x16.size (by sl_kernel_rfl))]
  unfold kernelRun1_A
  dsimp only
  sl_unfold_words
  rw [View.canon_unit_zero hz2]
  simp only [View.readAt_eq_ld, harg1.read_unread, harg2.read_unread, harg3.read_unread, harg4.read_unread, harg5.read_unread,
    View.ld_unit_zero (S := S128x32) hz2, View.ld_unit_zero (S := S32) hz1, View.ld_unit_zero (S := S32x16) hz2,
    View.ld_unit_zero (S := S16) hz1]

end Piece

section Halves
variable {F : FTy → Type} [FloatOps F]

theorem half0_apply (x0 : Vec F S2x128x4096 .f32) (f : Fin 128) (g : Fin 4096) :
    half0 x0 (ix3 (0 : Fin 1) f g) = x0 (ix3 (0 : Fin 2) f g) :=
  congrArg x0 (funext fun a => Fin.ext (by
    match a with
    | ⟨0, _⟩ => rfl
    | ⟨1, _⟩ => show 0 + 1 * f.val = f.val; omega
    | ⟨2, _⟩ => show 0 + 1 * g.val = g.val; omega))

theorem half1_apply (x0 : Vec F S2x128x4096 .f32) (f : Fin 128) (g : Fin 4096) :
    half1 x0 (ix3 (0 : Fin 1) f g) = x0 (ix3 (1 : Fin 2) f g) :=
  congrArg x0 (funext fun a => Fin.ext (by
    match a with
    | ⟨0, _⟩ => rfl
    | ⟨1, _⟩ => show 0 + 1 * f.val = f.val; omega
    | ⟨2, _⟩ => show 0 + 1 * g.val = g.val; omega))

end Halves

section Products

theorem mm1_apply (A : FVec Ideal S4096x128 .f32) (B : FVec Ideal S128x32 .f32) (g : Fin 4096) (j : Fin 32) :
    matmul dot_S4096x128_S128x32_S4096x32_1_0_0_1_n_n (some .fp32) A B (constant (F := Ideal) S4096x32 .f32 0x00000000#32) (ix2 g j)
      = ∑ k : Fin 128, A (ix2 g k) * B (ix2 k j) :=
  Cert.LibMatmul.matmul_zero_apply dot_S4096x128_S128x32_S4096x32_1_0_0_1_n_n 128 rfl rfl _ _ _ _ (fun k => ix2 _ k) (fun k => ix2 k _)
    (fun q => funext fun x => Fin.ext (by
      match x with
      | ⟨0, _⟩ => exact Cert.LibMatmul.lhsIdx_val_of_non dot_S4096x128_S128x32_S4096x32_1_0_0_1_n_n (a := 0) (by decide) (by decide) 0 (by decide) _ _
      | ⟨1, _⟩ => exact dot_S4096x128_S128x32_S4096x32_1_0_0_1_n_n.lhsIdx_val_of_single rfl _ _))
    (fun q => funext fun x => Fin.ext (by
      match x with
      | ⟨0, _⟩ => exact dot_S4096x128_S128x32_S4096x32_1_0_0_1_n_n.rhsIdx_val_of_single rfl _ _
      | ⟨1, _⟩ => exact Cert.LibMatmul.rhsIdx_val_of_non dot_S4096x128_S128x32_S4096x32_1_0_0_1_n_n (a := 1) (by decide) (by decide) 1 (by decide) _ _))

theorem mm2_apply (A : FVec Ideal S4096x32 .f32) (B : FVec Ideal S32x16 .f32) (g : Fin 4096) (j : Fin 16) :
    matmul dot_S4096x32_S32x16_S4096x16_1_0_0_1_n_n (some .fp32) A B (constant (F := Ideal) S4096x16 .f32 0x00000000#32) (ix2 g j)
      = ∑ k : Fin 32, A (ix2 g k) * B (ix2 k j) :=
  Cert.LibMatmul.matmul_zero_apply dot_S4096x32_S32x16_S4096x16_1_0_0_1_n_n 32 rfl rfl _ _ _ _ (fun k => ix2 _ k) (fun k => ix2 k _)
    (fun q => funext fun x => Fin.ext (by
      match x with
      | ⟨0, _⟩ => exact Cert.LibMatmul.lhsIdx_val_of_non dot_S4096x32_S32x16_S4096x16_1_0_0_1_n_n (a := 0) (by decide) (by decide) 0 (by decide) _ _
      | ⟨1, _⟩ => exact dot_S4096x32_S32x16_S4096x16_1_0_0_1_n_n.lhsIdx_val_of_single rfl _ _))
    (fun q => funext fun x => Fin.ext (by
      match x with
      | ⟨0, _⟩ => exact dot_S4096x32_S32x16_S4096x16_1_0_0_1_n_n.rhsIdx_val_of_single rfl _ _
      | ⟨1, _⟩ => exact Cert.LibMatmul.rhsIdx_val_of_non dot_S4096x32_S32x16_S4096x16_1_0_0_1_n_n (a := 1) (by decide) (by decide) 1 (by decide) _ _))

end Products

section Payload

theorem sums_apply (v0 v2 : FVec Ideal S1x128x4096 .f32) (g : Fin 4096) (f : Fin 128) :
    transpose S4096x128 [1, 0] (addf (shapeCast S128x4096 v0 shapeCasts_S1x128x4096_S128x4096)
        (shapeCast S128x4096 v2 shapeCasts_S1x128x4096_S128x4096)) transposes_S128x4096_p1_0_S4096x128 (ix2 g f)
      = v0 (ix3 0 f g) + v2 (ix3 0 f g) := by
  rw [transpose_ix2_apply, addf_apply, shapeCast_1ab_ab_apply, shapeCast_1ab_ab_apply]

theorem hidden_apply (v5 : FVec Ideal S4096x128 .f32) (v6 : FVec Ideal S128x32 .f32) (v8 : FVec Ideal S32 .f32) (g : Fin 4096) (j : Fin 32) :
    maximumf (addf (matmul dot_S4096x128_S128x32_S4096x32_1_0_0_1_n_n (some .fp32) v5 v6 (constant (F := Ideal) S4096x32 .f32 0x00000000#32))
        (broadcastTo S4096x32 (shapeCast S1x32 v8 shapeCasts_S32_S1x32) broadcasts_S1x32_S4096x32))
        (broadcast S4096x32 (Scalar.ofBits (F := Ideal) .f32 0x00000000#32)) (ix2 g j)
      = max ((∑ f : Fin 128, v5 (ix2 g f) * v6 (ix2 f j)) + v8 (ix1 j)) 0 := by
  rw [maximumf_apply, addf_apply, mm1_apply, broadcastTo_1b_ab_apply, shapeCast_a_1a_apply, broadcast_apply]
  show max _ (Ideal.ofBits .f32 0x00000000#32) = _
  rw [Ideal.ofBits_zero_f32]

theorem pay1_apply (v0 v2 : FVec Ideal S1x128x4096 .f32) (v6 : FVec Ideal S128x32 .f32) (v8 : FVec Ideal S32 .f32)
    (v14 : FVec Ideal S32x16 .f32) (v16 : FVec Ideal S16 .f32) (g : Fin 4096) (o : Fin 16) :
    k1_pay1 (F := Ideal) v0 v2 v6 v8 v14 v16 (ix2 g o)
      = head (fun f => v0 (ix3 0 f g) + v2 (ix3 0 f g)) (fun f j => v6 (ix2 f j)) (fun j => v8 (ix1 j))
          (fun j o => v14 (ix2 j o)) (fun o => v16 (ix1 o)) o := by
  unfold k1_pay1 head
  dsimp only
  rw [addf_apply, mm2_apply, broadcastTo_1b_ab_apply, shapeCast_a_1a_apply]
  refine congrArg (· + v16 (ix1 o)) (Finset.sum_congr rfl fun j _ => ?_)
  rw [hidden_apply]
  refine congrArg (fun s => max (s + v8 (ix1 j)) 0 * v14 (ix2 j o)) (Finset.sum_congr rfl fun f _ => ?_)
  rw [sums_apply]

end Payload

section PayloadHalves

theorem pay1_halves_apply (x0 : FVec Ideal S2x128x4096 .f32) (v6 : FVec Ideal S128x32 .f32) (v8 : FVec Ideal S32 .f32)
    (v14 : FVec Ideal S32x16 .f32) (v16 : FVec Ideal S16 .f32) (g : Fin 4096) (o : Fin 16) :
    k1_pay1 (F := Ideal) (half0 (F := Ideal) x0) (half1 (F := Ideal) x0) v6 v8 v14 v16 (ix2 g o)
      = head (fun f => x0 (ix3 0 f g) + x0 (ix3 1 f g)) (fun f j => v6 (ix2 f j)) (fun j => v8 (ix1 j))
          (fun j o => v14 (ix2 j o)) (fun o => v16 (ix1 o)) o := by
  refine (pay1_apply (half0 (F := Ideal) x0) (half1 (F := Ideal) x0) v6 v8 v14 v16 g o).trans ?_
  exact congrArg (fun s => head s (fun f j => v6 (ix2 f j)) (fun j => v8 (ix1 j)) (fun j o => v14 (ix2 j o)) (fun o => v16 (ix1 o)) o)
    (funext fun f => congrArg₂ (· + ·) (half0_apply (F := Ideal) x0 f g) (half1_apply (F := Ideal) x0 f g))

end PayloadHalves

section
variable (V : (c : Dev nD) → (b : Ref sig .tc) → Buf (Elt Ideal) ((c : Thread nD τ).loc b))

abbrev v1Arr (c : Dev nD) : S2x128x4096.Idx → EReal := V c main_v1

abbrev w3Arr (c : Dev nD) : S128x32.Idx → EReal := V c main_arg6
abbrev b3Arr (c : Dev nD) : S32.Idx → EReal := V c main_arg7
abbrev w4Arr (c : Dev nD) : S32x16.Idx → EReal := V c main_arg8
abbrev b4Arr (c : Dev nD) : S16.Idx → EReal := V c main_arg9

theorem blk1_0 (c : Dev nD) (t : Fin cfg1.N) : (iblk1 (F := Ideal) V c 0 t : S2x128x4096.Idx → EReal) = v1Arr V c := by
  have hz' : (fun a => win1_0.index t a * main_v1.ty.shape.size a) = fun _ => 0 := funext fun a => by fin_cases a <;> rfl
  exact Memref.read_access_unit_zero (Elt Ideal) main_v1 hz' (fun a => by rw [congrFun hz' a]; simp) (v1Arr V c)
theorem blk1_1 (c : Dev nD) (t : Fin cfg1.N) : (iblk1 (F := Ideal) V c 1 t : S128x32.Idx → EReal) = w3Arr V c := by
  have hz' : (fun a => win1_1.index t a * main_arg6.ty.shape.size a) = fun _ => 0 := funext fun a => by fin_cases a <;> rfl
  exact Memref.read_access_unit_zero (Elt Ideal) main_arg6 hz' (fun a => by rw [congrFun hz' a]; simp) (w3Arr V c)
theorem blk1_2 (c : Dev nD) (t : Fin cfg1.N) : (iblk1 (F := Ideal) V c 2 t : S32.Idx → EReal) = b3Arr V c := by
  have hz' : (fun a => win1_2.index t a * main_arg7.ty.shape.size a) = fun _ => 0 := funext fun a => by fin_cases a <;> rfl
  exact Memref.read_access_unit_zero (Elt Ideal) main_arg7 hz' (fun a => by rw [congrFun hz' a]; simp) (b3Arr V c)
theorem blk1_3 (c : Dev nD) (t : Fin cfg1.N) : (iblk1 (F := Ideal) V c 3 t : S32x16.Idx → EReal) = w4Arr V c := by
  have hz' : (fun a => win1_3.index t a * main_arg8.ty.shape.size a) = fun _ => 0 := funext fun a => by fin_cases a <;> rfl
  exact Memref.read_access_unit_zero (Elt Ideal) main_arg8 hz' (fun a => by rw [congrFun hz' a]; simp) (w4Arr V c)
theorem blk1_4 (c : Dev nD) (t : Fin cfg1.N) : (iblk1 (F := Ideal) V c 4 t : S16.Idx → EReal) = b4Arr V c := by
  have hz' : (fun a => win1_4.index t a * main_arg9.ty.shape.size a) = fun _ => 0 := funext fun a => by fin_cases a <;> rfl
  exact Memref.read_access_unit_zero (Elt Ideal) main_arg9 hz' (fun a => by rw [congrFun hz' a]; simp) (b4Arr V c)

end

section
variable (V : (c : Dev nD) → (b : Ref sig .tc) → Buf (Elt Ideal) ((c : Thread nD τ).loc b))

def G1 (c : Dev nD) : S4096x16.Idx → EReal := fun i =>
  head (fun f => v1Arr V c (ix3 0 f (i 0)) + v1Arr V c (ix3 1 f (i 0))) (fun f j => w3Arr V c (ix2 f j)) (fun j => b3Arr V c (ix1 j))
    (fun j o => w4Arr V c (ix2 j o)) (fun o => b4Arr V c (ix1 o)) (i 1)

theorem outsAt1_apply (c : Dev nD) (t : Fin cfg1.N) (g : Fin 4096) (o : Fin 16) :
    outsAt1 (F := Ideal) V c t (ix2 g o) = G1 V c (ix2 g o) := by
  unfold outsAt1
  refine (congrFun (out1_eq (F := Ideal) c (grid1.coords t) (ms1_0 t) (hs1_0 t) (ms1_1 t) (hs1_1 t) (ms1_2 t) (hs1_2 t) (ms1_3 t) (hs1_3 t)
    (ms1_4 t) (hs1_4 t) (ms1_5 t) (hs1_5 t) (iblk1 V c 0 t) (iblk1 V c 1 t) (iblk1 V c 2 t) (iblk1 V c 3 t) (iblk1 V c 4 t)) (ix2 g o)).trans ?_
  rw [blk1_0 V c t, blk1_1 V c t, blk1_2 V c t, blk1_3 V c t, blk1_4 V c t]
  exact pay1_halves_apply (v1Arr V c) (w3Arr V c) (b3Arr V c) (w4Arr V c) (b4Arr V c) g o

theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [show (dat1 (F := Ideal) V c).after 5 t = outsAt1 V c t from by dsimp only [dat1]]
  have hz' : (fun a => win1_5.index t a * main_v2.ty.shape.size a) = fun _ => 0 := funext fun a => by fin_cases a <;> rfl
  have key : (outsAt1 (F := Ideal) V c t : S4096x16.Idx → EReal) = G1 V c := funext fun i => by
    obtain ⟨g, o, rfl⟩ : ∃ (g : Fin 4096) (o : Fin 16), i = ix2 g o := ⟨i 0, i 1, eq_ix2 i⟩
    exact outsAt1_apply V c t g o
  exact key.trans (Memref.read_access_unit_zero (Elt Ideal) main_v2 hz' (fun a => by rw [congrFun hz' a]; simp) (G1 V c)).symm

theorem final1_fun (c : Dev nD) : (dat1 (F := Ideal) V c).arrAt 5 cfg1.N = G1 V c :=
  (dat1 (F := Ideal) V c).arrAt_eq_of_cover 5 (G1 V c) (fun t _ => flushed1_eq V c t) fun i =>
    ⟨t1_0, flush1_5 t1_0, by
      show i ∈ ((View.whole main_v2).slice (win1_5.rect t1_0)).set
      rw [View.set_slice_whole, Rect.mem_set_unit]
      intro a
      have h0 : (i 0 : Nat) < 4096 := (i 0).isLt
      have h1 : (i 1 : Nat) < 16 := (i 1).isLt
      match a with
      | ⟨0, _⟩ => show win1_5.index t1_0 0 * win1_5.size 0 ≤ (i 0 : Nat) ∧ (i 0 : Nat) < win1_5.index t1_0 0 * win1_5.size 0 + win1_5.xsize (grid1.coords t1_0) 0
                  rw [show win1_5.index t1_0 0 * win1_5.size 0 = 0 from by decide +kernel, show win1_5.xsize (grid1.coords t1_0) 0 = 4096 from by decide +kernel]; omega
      | ⟨1, _⟩ => show win1_5.index t1_0 1 * win1_5.size 1 ≤ (i 1 : Nat) ∧ (i 1 : Nat) < win1_5.index t1_0 1 * win1_5.size 1 + win1_5.xsize (grid1.coords t1_0) 1
                  rw [show win1_5.index t1_0 1 * win1_5.size 1 = 0 from by decide +kernel, show win1_5.xsize (grid1.coords t1_0) 1 = 16 from by decide +kernel]; omega⟩

/-- Region 1's result array, entry (g, o). -/
theorem final1 (c : Dev nD) (g : Fin 4096) (o : Fin 16) :
    (dat1 (F := Ideal) V c).arrAt 5 cfg1.N (ix2 g o)
      = head (fun f => v1Arr V c (ix3 0 f g) + v1Arr V c (ix3 1 f g)) (fun f j => V c main_arg6 (ix2 f j)) (fun j => V c main_arg7 (ix1 j))
          (fun j o => V c main_arg8 (ix2 j o)) (fun o => V c main_arg9 (ix1 o)) o := by
  rw [final1_fun V c]
  rfl

end

end Cert.KernelIdeal.Val

end
-- ==== Proof.KI.Result.lean ====
import proofs.«412652_j15187004358828_3_alg».proof.Proof.KI.Run
import proofs.«412652_j15187004358828_3_alg».proof.Proof.KI.R0Acc
import proofs.«412652_j15187004358828_3_alg».proof.Proof.KI.R1Value
import proofs.«412652_j15187004358828_3_alg».proof.Proof.Algebra

/-! The idealized kernel's result as a function of the launch memory: region 0 leaves the two halves' sums, the two halves add up to the sum over all nodes, and region 1 applies the graph network: the specification, when the node network's float arguments are real. -/

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

section
variable (m : (ℓ : Loc nD τ sig) → Buf (Elt Ideal) ℓ)

theorem U1_of (c : Dev nD) (b : Ref sig .tc) (hb : b ∉ hostOps0_W) : U1 m c b = m ((c : Thread nD τ).loc b) := V1_of m c b hb

theorem V1_main_v0 (c : Dev nD) (n : Fin 1000000) :
    (U1 m c main_v0 : S1000000x1.Idx → BitVec 32) (ix2 n 0) = (m ((c : Thread nD τ).loc main_arg1) : S1000000.Idx → BitVec 32) (ix1 n) := by
  show (StableHlo.after hostOps0 (V0 m c) (Proc.devRef .tc main_v0) : S1000000x1.Idx → BitVec 32) (ix2 n 0) = _
  after_results
  show shapeCast S1000000x1 (V0 m c (Proc.devRef .tc main_arg1) : S1000000.Idx → BitVec 32) shapeCasts_S1000000_S1000000x1 (ix2 n 0) = _
  exact shapeCast_apply _ _ _ (ix1 n) (by
    rw [Shape.rowMajor_val_two, Shape.rowMajor_val_one]
    show n.val = n.val * 1 + 0
    omega)

theorem V2_of_ne (c : Dev nD) (b : Ref sig .tc) (hb : ∀ w, Pipeline.arrRef spec0 w ≠ b) (hb' : b ∉ hostOps0_W) :
    U2 m c b = m ((c : Thread nD τ).loc b) :=
  (W2_of_ne m c b hb).trans (U1_of m c b hb')

abbrev a0 (c : Dev nD) : S1000000x128.Idx → EReal := m ((c : Thread nD τ).loc main_arg0)
abbrev a1 (c : Dev nD) : S1000000.Idx → BitVec 32 := m ((c : Thread nD τ).loc main_arg1)
abbrev a2 (c : Dev nD) : S128x64.Idx → EReal := m ((c : Thread nD τ).loc main_arg2)
abbrev a3 (c : Dev nD) : S64.Idx → EReal := m ((c : Thread nD τ).loc main_arg3)
abbrev a4 (c : Dev nD) : S64x256.Idx → EReal := m ((c : Thread nD τ).loc main_arg4)
abbrev a5 (c : Dev nD) : S256.Idx → EReal := m ((c : Thread nD τ).loc main_arg5)
abbrev a6 (c : Dev nD) : S128x32.Idx → EReal := m ((c : Thread nD τ).loc main_arg6)
abbrev a7 (c : Dev nD) : S32.Idx → EReal := m ((c : Thread nD τ).loc main_arg7)
abbrev a8 (c : Dev nD) : S32x16.Idx → EReal := m ((c : Thread nD τ).loc main_arg8)
abbrev a9 (c : Dev nD) : S16.Idx → EReal := m ((c : Thread nD τ).loc main_arg9)

theorem partial_eq (c : Dev nD) (h0 : ∀ j, IsReal (a0 m c j)) (h2 : ∀ j, IsReal (a2 m c j)) (h3 : ∀ j, IsReal (a3 m c j))
    (h4 : ∀ j, IsReal (a4 m c j)) (h5 : ∀ j, IsReal (a5 m c j)) (h : Fin 2) (f : Fin 128) (g : Fin 4096) :
    v1Arr (U2 m) c (ix3 h f g)
      = halfSum (fun n => a1 m c (ix1 n)) (gatedOf (a0 m c) (a2 m c) (a3 m c) (a4 m c) (a5 m c)) h g f := by
  have e : v1Arr (U2 m) c = (dat0 (F := Ideal) (U1 m) c).arrAt 6 cfg0.N := W2_arr m c 6
  rw [e, final0 (U1 m) c (by rw [U1_of m c main_arg0 (by decide)]; exact h0) (by rw [U1_of m c main_arg2 (by decide)]; exact h2)
    (by rw [U1_of m c main_arg3 (by decide)]; exact h3) (by rw [U1_of m c main_arg4 (by decide)]; exact h4)
    (by rw [U1_of m c main_arg5 (by decide)]; exact h5) h f g]
  rw [U1_of m c main_arg0 (by decide), U1_of m c main_arg2 (by decide), U1_of m c main_arg3 (by decide),
    U1_of m c main_arg4 (by decide), U1_of m c main_arg5 (by decide)]
  congr 1
  funext n
  exact V1_main_v0 m c n

/-- THE RESULT: region 1's result array is the specification of the argument arrays. -/
theorem result_eq (c : Dev nD) (h0 : ∀ j, IsReal (a0 m c j)) (h2 : ∀ j, IsReal (a2 m c j)) (h3 : ∀ j, IsReal (a3 m c j))
    (h4 : ∀ j, IsReal (a4 m c j)) (h5 : ∀ j, IsReal (a5 m c j)) :
    ((dat1 (F := Ideal) (U2 m) c).arrAt 5 cfg1.N : S4096x16.Idx → EReal)
      = G (a0 m c) (a1 m c) (a2 m c) (a3 m c) (a4 m c) (a5 m c) (a6 m c) (a7 m c) (a8 m c) (a9 m c) := by
  funext i
  obtain ⟨g, o, rfl⟩ : ∃ (g : Fin 4096) (o : Fin 16), i = ix2 g o := ⟨i 0, i 1, eq_ix2 i⟩
  have hs : (fun f => v1Arr (U2 m) c (ix3 0 f g) + v1Arr (U2 m) c (ix3 1 f g))
      = segsum (fun n => a1 m c (ix1 n)) (gatedOf (a0 m c) (a2 m c) (a3 m c) (a4 m c) (a5 m c)) g := by
    funext f
    rw [partial_eq m c h0 h2 h3 h4 h5 0 f g, partial_eq m c h0 h2 h3 h4 h5 1 f g]
    exact (segsum_eq_halves (fun n => a1 m c (ix1 n)) (gatedOf (a0 m c) (a2 m c) (a3 m c) (a4 m c) (a5 m c)) g f).symm
  rw [final1 (U2 m) c g o, hs, V2_of_ne m c main_arg6 (by decide) (by decide), V2_of_ne m c main_arg7 (by decide) (by decide),
    V2_of_ne m c main_arg8 (by decide) (by decide), V2_of_ne m c main_arg9 (by decide) (by decide)]
  rfl

end

end Cert.KernelIdeal.Val

end
-- ==== Proof.RefValue.lean ====
import proofs.«412652_j15187004358828_3_alg».proof.Proof.Gen.ReferenceIdeal.Run
import proofs.«412652_j15187004358828_3_alg».proof.Proof.Gen.ReferenceIdeal.Read
import proofs.«412652_j15187004358828_3_alg».proof.Proof.Spec

/-! The reference's result array is the specification of its argument arrays, stage by stage: the node network at a row, the scatter as the per-graph sum, the graph network at a row. -/

noncomputable section

namespace Cert.ReferenceIdeal.RefValue

open Cert.ReferenceIdeal Cert.ReferenceIdeal.Gen Cert.ReferenceIdeal.Read Idealize.ShloMosaic Idealize.ShloMosaic.ValueIdx

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      intro a
      have h2 := congrArg Fin.val (congrFun (Option.some.inj h) a)
      simp only at h2
      have := hh a
      omega
    · exact absurd h (by simp)
  · intro h
    have hh : ∀ a, 0 ≤ d.start j idx a + d.window j a ∧ d.start j idx a + d.window j a < s.size a := by
      intro a; have := h a; have := (i a).isLt; omega
    rw [dif_pos hh]
    congr 1
    funext a; apply Fin.ext; simp only; have := h a; omega

abbrev sd := scatter_S4096x128_S1000000x1_S1000000x128_1_0_0_1

theorem sd_window0 (j : S1000000x128.Idx) : sd.window j 0 = 0 := by
  unfold ScatterDims.window
  rw [dif_neg (by decide)]

theorem sd_window1 (j : S1000000x128.Idx) : sd.window j 1 = (j 1).val := by
  unfold ScatterDims.window
  rw [dif_pos (by decide)]
  rfl

theorem sd_start1 (j : S1000000x128.Idx) (idx : IVec S1000000x1 32) : sd.start j idx 1 = 0 := by
  unfold ScatterDims.start
  rw [dif_neg (by decide)]

theorem sd_start0 (j : S1000000x128.Idx) (idx : IVec S1000000x1 32) :
    sd.start j idx 0 = (idx (ix2 (j 0) (0 : Fin 1))).toInt := by
  unfold ScatterDims.start
  rw [dif_pos (by decide)]
  congr 2
  funext b
  match b with
  | ⟨0, _⟩ => rfl
  | ⟨1, _⟩ => rfl

/-- An update row lands on operand row `g` exactly when its index word is the word of `g` (`g < 4096`, so reading the word signed changes nothing). -/
theorem scatter_hit (idx : IVec S1000000x1 32) (n : Fin 1000000) (f' f : Fin 128) (g : Fin 4096) :
    sd.resultIdx? (ix2 n f') idx = some (ix2 g f) ↔ (f' = f ∧ idx (ix2 n (0 : Fin 1)) = BitVec.ofNat 32 g.val) := by
  rw [resultIdx?_eq_some_iff]
  have hg := g.isLt
  constructor
  · intro h
    have h0 := h 0
    have h1 := h 1
    rw [sd_start0, sd_window0] at h0
    rw [sd_start1, sd_window1] at h1
    change (idx (ix2 n (0 : Fin 1))).toInt + ((0 : Nat) : Int) = (g.val : Int) at h0
    change (0 : Int) + (f'.val : Int) = (f.val : Int) at h1
    refine ⟨Fin.ext (by omega), ?_⟩
    apply BitVec.eq_of_toNat_eq
    rw [BitVec.toNat_ofNat]
    have := (idx (ix2 n (0 : Fin 1))).isLt
    rw [BitVec.toInt_eq_toNat_cond] at h0
    split at h0 <;> omega
  · rintro ⟨rfl, h⟩ a
    match a with
    | ⟨0, _⟩ =>
      show sd.start (ix2 n f') idx 0 + ((sd.window (ix2 n f') 0 : Nat) : Int) = (g.val : Int)
      rw [sd_start0, sd_window0]
      show (idx (ix2 n (0 : Fin 1))).toInt + ((0 : Nat) : Int) = (g.val : Int)
      rw [h, BitVec.toInt_eq_toNat_cond, BitVec.toNat_ofNat]
      split <;> omega
    | ⟨1, _⟩ =>
      show sd.start (ix2 n f') idx 1 + ((sd.window (ix2 n f') 1 : Nat) : Int) = (f'.val : Int)
      rw [sd_start1, sd_window1]
      show (0 : Int) + (f'.val : Int) = (f'.val : Int)
      omega

theorem scatter_apply (x : FVec Ideal S4096x128 .f32) (idx : IVec S1000000x1 32) (upd : FVec Ideal S1000000x128 .f32)
    (g : Fin 4096) (f : Fin 128) :
    Ideal.hostScatterAdd sd x idx upd (ix2 g f)
      = x (ix2 g f) + ∑ n : Fin 1000000, if idx (ix2 n (0 : Fin 1)) = BitVec.ofNat 32 g.val then upd (ix2 n f) else 0 := by
  unfold Ideal.hostScatterAdd
  refine congrArg (x (ix2 g f) + ·) ?_
  rw [Finset.sum_filter, sum_idx2]
  refine Finset.sum_congr rfl fun n _ => ?_
  rw [Finset.sum_congr rfl fun f' _ => if_congr (scatter_hit idx n f' f g) rfl rfl]
  by_cases h : idx (ix2 n (0 : Fin 1)) = BitVec.ofNat 32 g.val
  · simp only [h, and_true, if_true, Finset.sum_ite_eq', Finset.mem_univ]
  · simp only [h, and_false, if_false, Finset.sum_const_zero]

theorem scatterAdd_ideal (x : FVec Ideal S4096x128 .f32) (idx : IVec S1000000x1 32) (upd : FVec Ideal S1000000x128 .f32) :
    Host.scatterAdd (F := Ideal) sd x idx upd = Ideal.hostScatterAdd sd x idx upd := rfl

theorem scatter_host_apply (x : FVec Ideal S4096x128 .f32) (idx : IVec S1000000x1 32) (upd : FVec Ideal S1000000x128 .f32)
    (g : Fin 4096) (f : Fin 128) :
    Host.scatterAdd (F := Ideal) sd x idx upd (ix2 g f)
      = x (ix2 g f) + ∑ n : Fin 1000000, if idx (ix2 n (0 : Fin 1)) = BitVec.ofNat 32 g.val then upd (ix2 n f) else 0 := by
  rw [scatterAdd_ideal]
  exact scatter_apply x idx upd g f

theorem ofBits_one : Ideal.ofBits .f32 0x3F800000#32 = 1 := by
  show Ideal.ieee 8 23 (0x3F800000#32 : BitVec 32) = 1
  delta Ideal.ieee
  simp [-EReal.coe_mul]; norm_num

section Node

variable (x0 : (⟨S1000000x128, .f32⟩ : BufTy).Contents (Elt Ideal)) (x2 : (⟨S128x64, .f32⟩ : BufTy).Contents (Elt Ideal))
  (x3 : (⟨S64, .f32⟩ : BufTy).Contents (Elt Ideal)) (x4 : (⟨S64x256, .f32⟩ : BufTy).Contents (Elt Ideal))
  (x5 : (⟨S256, .f32⟩ : BufTy).Contents (Elt Ideal))

theorem hid_eq (n : Fin 1000000) (j : Fin 64) :
    val_main_v4 (F := Ideal) x0 x2 x3 (ix2 n j)
      = Cert.Spec.hid (fun k => x0 (ix2 n k)) (fun k j => x2 (ix2 k j)) (fun j => x3 (ix1 j)) j := by
  rw [val_main_v4_apply, val_main_v3_apply, val_main_v0_apply, val_main_v2_apply, val_main_v1_apply,
    val_main_call0_v0_apply, val_main_call0_cst_apply]
  have e1 : ∀ k, lidx_main_v0 (ix2 n j) k = ix2 n k := fun k => funext fun a => Fin.ext (by
    match a with | ⟨0, _⟩ => rfl | ⟨1, _⟩ => rfl)
  have e2 : ∀ k, ridx_main_v0 (ix2 n j) k = ix2 k j := fun k => funext fun a => Fin.ext (by
    match a with | ⟨0, _⟩ => rfl | ⟨1, _⟩ => rfl)
  have e3 : idx_main_v1 (idx_main_v2 (ix2 n j)) = ix1 j := funext fun a => Fin.ext (by
    match a with | ⟨0, _⟩ => rfl)
  simp only [e1, e2, e3, Ideal.maximumf_def, Ideal.addf_def, Ideal.ofBits_def, Ideal.ofBits_zero_f32, Cert.Spec.hid]

theorem pre2_eq (n : Fin 1000000) (q : Fin 256) :
    val_main_v8 (F := Ideal) x0 x2 x3 x4 x5 (ix2 n q)
      = Cert.Spec.pre2 (fun k => x0 (ix2 n k)) (fun k j => x2 (ix2 k j)) (fun j => x3 (ix1 j)) (fun j q => x4 (ix2 j q))
          (fun q => x5 (ix1 q)) q := by
  rw [val_main_v8_apply, val_main_v5_apply, val_main_v7_apply, val_main_v6_apply]
  have e1 : ∀ k, lidx_main_v5 (ix2 n q) k = ix2 n k := fun k => funext fun a => Fin.ext (by
    match a with | ⟨0, _⟩ => rfl | ⟨1, _⟩ => rfl)
  have e2 : ∀ k, ridx_main_v5 (ix2 n q) k = ix2 k q := fun k => funext fun a => Fin.ext (by
    match a with | ⟨0, _⟩ => rfl | ⟨1, _⟩ => rfl)
  have e3 : idx_main_v6 (idx_main_v7 (ix2 n q)) = ix1 q := funext fun a => Fin.ext (by
    match a with | ⟨0, _⟩ => rfl)
  simp only [e1, e2, e3, hid_eq, Ideal.addf_def, Cert.Spec.pre2]

theorem gated_eq (n : Fin 1000000) (f : Fin 128) :
    val_main_v17 (F := Ideal) x0 x2 x3 x4 x5 (ix2 n f) = Cert.Spec.gatedOf x0 x2 x3 x4 x5 n f := by
  rw [val_main_v17_apply, val_main_v16_apply, val_main_v15_apply, val_main_v14_apply, val_main_cst_0_apply,
    val_main_v13_apply, val_main_v12_apply, val_main_cst_apply, val_main_v11_apply, val_main_v10_apply, val_main_v9_apply]
  have e1 : idx_main_v16 (ix2 n f) = ix2 n (⟨f.val + 128, by omega⟩ : Fin 256) := funext fun a => Fin.ext (by
    match a with | ⟨0, _⟩ => rfl | ⟨1, _⟩ => exact Nat.add_comm _ _)
  have e2 : idx_main_v9 (ix2 n f) = ix2 n (⟨f.val, by omega⟩ : Fin 256) := funext fun a => Fin.ext (by
    match a with | ⟨0, _⟩ => rfl | ⟨1, _⟩ => rfl)
  rw [e1, e2, pre2_eq, pre2_eq]
  simp only [Ideal.mulf_def, Ideal.hostDivf_def, Ideal.addf_def, Ideal.hostUnary_exp_def, Ideal.hostNegf_def, Ideal.negf_def,
    Ideal.ofBits_def, ofBits_one, Cert.Spec.gatedOf, Cert.Spec.gated, Ideal.logistic]

end Node

section Graph

variable (x0 : (⟨S1000000x128, .f32⟩ : BufTy).Contents (Elt Ideal)) (x1 : (⟨S1000000, .i32⟩ : BufTy).Contents (Elt Ideal))
  (x2 : (⟨S128x64, .f32⟩ : BufTy).Contents (Elt Ideal)) (x3 : (⟨S64, .f32⟩ : BufTy).Contents (Elt Ideal))
  (x4 : (⟨S64x256, .f32⟩ : BufTy).Contents (Elt Ideal)) (x5 : (⟨S256, .f32⟩ : BufTy).Contents (Elt Ideal))
  (x6 : (⟨S128x32, .f32⟩ : BufTy).Contents (Elt Ideal)) (x7 : (⟨S32, .f32⟩ : BufTy).Contents (Elt Ideal))
  (x8 : (⟨S32x16, .f32⟩ : BufTy).Contents (Elt Ideal)) (x9 : (⟨S16, .f32⟩ : BufTy).Contents (Elt Ideal))

theorem graph_eq (g : Fin 4096) (f : Fin 128) :
    val_main_v20 (F := Ideal) x0 x1 x2 x3 x4 x5 (ix2 g f) = Cert.Spec.graphOf x0 x1 x2 x3 x4 x5 g f := by
  unfold val_main_v20
  rw [scatter_host_apply, val_main_v18_apply, val_main_cst_1_apply]
  have e1 : ∀ n : Fin 1000000, idx_main_v19 (ix2 n (0 : Fin 1)) = ix1 n := fun n => funext fun a => Fin.ext (by
    match a with | ⟨0, _⟩ => rfl)
  simp only [val_main_v19_apply, e1, gated_eq, Ideal.ofBits_def, Ideal.ofBits_zero_f32, zero_add, Cert.Spec.graphOf,
    Cert.Spec.segsum]

theorem hid2_eq (g : Fin 4096) (j : Fin 32) :
    val_main_v25 (F := Ideal) x0 x1 x2 x3 x4 x5 x6 x7 (ix2 g j)
      = max ((∑ f : Fin 128, Cert.Spec.graphOf x0 x1 x2 x3 x4 x5 g f * x6 (ix2 f j)) + x7 (ix1 j)) 0 := by
  rw [val_main_v25_apply, val_main_v24_apply, val_main_v21_apply, val_main_v23_apply, val_main_v22_apply,
    val_main_call1_v0_apply, val_main_call1_cst_apply]
  have e1 : ∀ k, lidx_main_v21 (ix2 g j) k = ix2 g k := fun k => funext fun a => Fin.ext (by
    match a with | ⟨0, _⟩ => rfl | ⟨1, _⟩ => rfl)
  have e2 : ∀ k, ridx_main_v21 (ix2 g j) k = ix2 k j := fun k => funext fun a => Fin.ext (by
    match a with | ⟨0, _⟩ => rfl | ⟨1, _⟩ => rfl)
  have e3 : idx_main_v22 (idx_main_v23 (ix2 g j)) = ix1 j := funext fun a => Fin.ext (by
    match a with | ⟨0, _⟩ => rfl)
  simp only [e1, e2, e3, graph_eq, Ideal.maximumf_def, Ideal.addf_def, Ideal.ofBits_def, Ideal.ofBits_zero_f32]

theorem out_eq (g : Fin 4096) (o : Fin 16) :
    val_main_v29 (F := Ideal) x0 x1 x2 x3 x4 x5 x6 x7 x8 x9 (ix2 g o)
      = Cert.Spec.outAt x0 x1 x2 x3 x4 x5 x6 x7 x8 x9 g o := by
  rw [val_main_v29_apply, val_main_v26_apply, val_main_v28_apply, val_main_v27_apply]
  have e1 : ∀ k, lidx_main_v26 (ix2 g o) k = ix2 g k := fun k => funext fun a => Fin.ext (by
    match a with | ⟨0, _⟩ => rfl | ⟨1, _⟩ => rfl)
  have e2 : ∀ k, ridx_main_v26 (ix2 g o) k = ix2 k o := fun k => funext fun a => Fin.ext (by
    match a with | ⟨0, _⟩ => rfl | ⟨1, _⟩ => rfl)
  have e3 : idx_main_v27 (idx_main_v28 (ix2 g o)) = ix1 o := funext fun a => Fin.ext (by
    match a with | ⟨0, _⟩ => rfl)
  simp only [e1, e2, e3, hid2_eq, Ideal.addf_def, Cert.Spec.outAt, Cert.Spec.head]

/-- The reference's result array is the specification. -/
theorem result_eq :
    val_main_v29 (F := Ideal) x0 x1 x2 x3 x4 x5 x6 x7 x8 x9 = Cert.Spec.G x0 x1 x2 x3 x4 x5 x6 x7 x8 x9 := by
  funext i
  obtain ⟨g, o, rfl⟩ : ∃ (g : Fin 4096) (o : Fin 16), i = ix2 g o := ⟨i 0, i 1, eq_ix2 i⟩
  exact (out_eq x0 x1 x2 x3 x4 x5 x6 x7 x8 x9 g o).trans (Cert.Spec.G_ix2 x0 x1 x2 x3 x4 x5 x6 x7 x8 x9 g o).symm

end Graph

end Cert.ReferenceIdeal.RefValue

end
-- ==== Proof.PreReal.lean ====
import proofs.«412652_j15187004358828_3_alg».proof.Proof.Gen.Pre_finite_inputs
import proofs.«412652_j15187004358828_3_alg».proof.Proof.Spec
import Idealize.ShloMosaic.Lib.ReduceAll
import Idealize.ShloMosaic.PureOps.Ideal

/-! Under the precondition every entry of the node network's float arguments is a real number. -/

noncomputable section

namespace Cert.PreReal

open Idealize.ShloMosaic Cert.Pre_finite_inputs Cert.Spec

instance : Subsingleton S_.Idx := ⟨fun a b => funext fun d => d.elim0⟩

theorem isReal_of_abs_lt (x : EReal)
    (h : FloatOps.cmpf (F := Ideal) (φ := .f32) .olt (FloatOps.hostAbsf x) (FloatOps.ofBits .f32 0x7F800000#32) = 1#1) :
    IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

theorem all_real {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf a) (broadcastInDim s ![] hb (constant S_ .f32 0x7F800000#32)))
      (constantI S_ 1 1#1) hr hu j = 1#1) (i : s.Idx) : IsReal (a i) :=
  isReal_of_abs_lt (a i) (Host.reduce_andi_all _ _ hr hu j e i)

theorem reals_of_pre (a0 : FVec Ideal S1000000x128 .f32) (a1 : IVec S1000000 32) (a2 : FVec Ideal S128x64 .f32) (a3 : FVec Ideal S64 .f32)
    (a4 : FVec Ideal S64x256 .f32) (a5 : FVec Ideal S256 .f32) (a6 : FVec Ideal S128x32 .f32) (a7 : FVec Ideal S32 .f32)
    (a8 : FVec Ideal S32x16 .f32) (a9 : FVec Ideal S16 .f32)
    (h : Cert.Pre_finite_inputs.fn (F := Ideal) a0 a1 a2 a3 a4 a5 a6 a7 a8 a9 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  dsimp only [fn, fn_part1, fn_part2, andi] at h0
  simp only [IntOp.andi_eq_one] at h0
  obtain ⟨⟨⟨⟨⟨⟨⟨⟨e0, e2⟩, e3⟩, e4⟩, e5⟩, _⟩, _⟩, _⟩, _⟩ := h0
  exact ⟨all_real a0 _ _ _ _ e0, all_real a2 _ _ _ _ e2, all_real a3 _ _ _ _ e3, all_real a4 _ _ _ _ e4,
    all_real a5 _ _ _ _ e5⟩

end Cert.PreReal

end
-- ==== Proof.lean ====
import proofs.«412652_j15187004358828_3_alg».proof.Defs
import proofs.«412652_j15187004358828_3_alg».proof.Proof.Gen.Kernel
import proofs.«412652_j15187004358828_3_alg».proof.Proof.Gen.KernelIdeal
import proofs.«412652_j15187004358828_3_alg».proof.Proof.Gen.ReferenceIdeal
import proofs.«412652_j15187004358828_3_alg».proof.Proof.Gen.Pre_finite_inputs
import proofs.«412652_j15187004358828_3_alg».proof.Proof.Gen.ReferenceIdeal.Run
import proofs.«412652_j15187004358828_3_alg».proof.Proof.Gen.ReferenceIdeal.Read
import proofs.«412652_j15187004358828_3_alg».proof.Proof.KB.Run
import proofs.«412652_j15187004358828_3_alg».proof.Proof.KI.Run
import proofs.«412652_j15187004358828_3_alg».proof.Proof.KI.Result
import proofs.«412652_j15187004358828_3_alg».proof.Proof.RefValue
import proofs.«412652_j15187004358828_3_alg».proof.Proof.PreReal
import Idealize.ShloMosaic.Adequacy
import Idealize.ShloMosaic.Init
import Idealize.ShloMosaic.PureOps.IdealRules

/-! The segment-sum network kernel against its reference. Both send each node's 128 features through a two-layer network
    to 256 numbers, multiply the last 128 by the logistic of the first 128, add these gated features up per graph (a node's index
    word selects the graph), and send each graph's 128 sums through a second two-layer network. The reference adds by one scatter;
    the kernel multiplies by one-hot selectors, block by block, into two partial sums that a second call adds. Over the extended
    reals the kernel's correction operand (the gated features minus themselves) vanishes because the inputs are finite, and the sum
    over all nodes is the sum of the blocks' sums. -/

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  IdealRules.truncf_extf.statement _ .f32 .bf16

theorem algebraic : Cert.algebraic_KernelIdeal_ReferenceIdeal := by
  intro m ρ m' ρ' hpre hagree
  refine ⟨fun c => (Cert.KernelIdeal.Hand.dat1 (F := Ideal) (Cert.KernelIdeal.Hand.U2 m) c).arrAt 5 Cert.KernelIdeal.cfg1.N,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, h4, h5⟩ := Cert.PreReal.reals_of_pre _ _ _ _ _ _ _ _ _ _ (hpre c)
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact ((Cert.ReferenceIdeal.Read.val_main_v29_eq (F := Ideal) _ _ _ _ _ _ _ _ _ _).trans
    (Cert.ReferenceIdeal.RefValue.result_eq _ _ _ _ _ _ _ _ _ _)).trans (Cert.KernelIdeal.Val.result_eq m c h0 h2 h3 h4 h5).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
